-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S128x128 .f32) (main_arg6 : FVec F S128x128 .f32) (main_arg7 : FVec F S128 .f32) (main_arg8 : FVec F S128x2 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S100000 : Shape := ⟨1, ![100000]⟩
abbrev S100000x1 : Shape := ⟨2, ![100000, 1]⟩
abbrev S102400 : Shape := ⟨1, ![102400]⟩
abbrev S1x102400 : Shape := ⟨2, ![1, 102400]⟩
abbrev S102400x1 : Shape := ⟨2, ![102400, 1]⟩
abbrev S2400x128 : Shape := ⟨2, ![2400, 128]⟩
abbrev S102400x128 : Shape := ⟨2, ![102400, 128]⟩
abbrev S2400x1 : Shape := ⟨2, ![2400, 1]⟩
abbrev S1x128 : Shape := ⟨2, ![1, 128]⟩
abbrev S1600000x128 : Shape := ⟨2, ![1600000, 128]⟩
abbrev S2560x1 : Shape := ⟨2, ![2560, 1]⟩
abbrev S1x2560 : Shape := ⟨2, ![1, 2560]⟩
abbrev S2560x128 : Shape := ⟨2, ![2560, 128]⟩
abbrev S2560x2560 : Shape := ⟨2, ![2560, 2560]⟩
abbrev S1x2 : Shape := ⟨2, ![1, 2]⟩
abbrev S102400x2 : Shape := ⟨2, ![102400, 2]⟩
abbrev S2560x2 : Shape := ⟨2, ![2560, 2]⟩
abbrev S100000x2 : Shape := ⟨2, ![100000, 2]⟩

abbrev nBuf : Space → Nat
  | .hbm => 56
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1600000x1, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S_, .f32⟩
  | .hbm, ⟨17, _⟩ => ⟨S1600000, .f32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S102400, .i32⟩
  | .hbm, ⟨32, _⟩ => ⟨S1x102400, .i32⟩
  | .hbm, ⟨33, _⟩ => ⟨S102400, .i32⟩
  | .hbm, ⟨34, _⟩ => ⟨S102400x1, .i32⟩
  | .hbm, ⟨35, _⟩ => ⟨S_, .f32⟩
  | .hbm, ⟨36, _⟩ => ⟨S2400x128, .f32⟩
  | .hbm, ⟨37, _⟩ => ⟨S102400x128, .f32⟩
  | .hbm, ⟨38, _⟩ => ⟨S102400x128, .bf16⟩
  | .hbm, ⟨39, _⟩ => ⟨S_, .f32⟩
  | .hbm, ⟨40, _⟩ => ⟨S2400x1, .f32⟩
  | .hbm, ⟨41, _⟩ => ⟨S102400x1, .f32⟩
  | .hbm, ⟨42, _⟩ => ⟨S128x128, .bf16⟩
  | .hbm, ⟨43, _⟩ => ⟨S128x128, .bf16⟩
  | .hbm, ⟨44, _⟩ => ⟨S1x128, .f32⟩
  | .hbm, ⟨45, _⟩ => ⟨S1600000x128, .bf16⟩
  | .hbm, ⟨46, _⟩ => ⟨S102400x128, .bf16⟩
  | .hbm, ⟨47, _⟩ => ⟨S128x128, .bf16⟩
  | .hbm, ⟨48, _⟩ => ⟨S128x128, .bf16⟩
  | .hbm, ⟨49, _⟩ => ⟨S1x128, .f32⟩
  | .hbm, ⟨50, _⟩ => ⟨S1600000x128, .bf16⟩
  | .hbm, ⟨51, _⟩ => ⟨S102400x128, .bf16⟩
  | .hbm, ⟨52, _⟩ => ⟨S128x2, .bf16⟩
  | .hbm, ⟨53, _⟩ => ⟨S1x2, .f32⟩
  | .hbm, ⟨54, _⟩ => ⟨S102400x2, .f32⟩
  | .hbm, ⟨55, _⟩ => ⟨S100000x2, .f32⟩
  | .local _ .vmem, ⟨0, _⟩ => ⟨S2560x1, .i32⟩
  | .local _ .vmem, ⟨1, _⟩ => ⟨S2560x1, .i32⟩
  | .local _ .vmem, ⟨2, _⟩ => ⟨S1x2560, .i32⟩
  | .local _ .vmem, ⟨3, _⟩ => ⟨S1x2560, .i32⟩
  | .local _ .vmem, ⟨4, _⟩ => ⟨S2560x128, .bf16⟩
  | .local _ .vmem, ⟨5, _⟩ => ⟨S2560x128, .bf16⟩
  | .local _ .vmem, ⟨6, _⟩ => ⟨S2560x128, .bf16⟩
  | .local _ .vmem, ⟨7, _⟩ => ⟨S2560x128, .bf16⟩
  | .local _ .vmem, ⟨8, _⟩ => ⟨S2560x128, .f32⟩
  | .local _ .vmem, ⟨9, _⟩ => ⟨S2560x1, .i32⟩
  | .local _ .vmem, ⟨10, _⟩ => ⟨S2560x1, .i32⟩
  | .local _ .vmem, ⟨11, _⟩ => ⟨S1x2560, .i32⟩
  | .local _ .vmem, ⟨12, _⟩ => ⟨S1x2560, .i32⟩
  | .local _ .vmem, ⟨13, _⟩ => ⟨S2560x128, .bf16⟩
  | .local _ .vmem, ⟨14, _⟩ => ⟨S2560x128, .bf16⟩
  | .local _ .vmem, ⟨15, _⟩ => ⟨S2560x1, .f32⟩
  | .local _ .vmem, ⟨16, _⟩ => ⟨S2560x1, .f32⟩
  | .local _ .vmem, ⟨17, _⟩ => ⟨S2560x128, .bf16⟩
  | .local _ .vmem, ⟨18, _⟩ => ⟨S2560x128, .bf16⟩
  | .local _ .vmem, ⟨19, _⟩ => ⟨S128x128, .bf16⟩
  | .local _ .vmem, ⟨20, _⟩ => ⟨S128x128, .bf16⟩
  | .local _ .vmem, ⟨21, _⟩ => ⟨S1x128, .f32⟩
  | .local _ .vmem, ⟨22, _⟩ => ⟨S2560x128, .bf16⟩
  | .local _ .vmem, ⟨23, _⟩ => ⟨S2560x128, .bf16⟩
  | .local _ .vmem, ⟨24, _⟩ => ⟨S2560x128, .f32⟩
  | .local _ .vmem, ⟨25, _⟩ => ⟨S2560x1, .i32⟩
  | .local _ .vmem, ⟨26, _⟩ => ⟨S2560x1, .i32⟩
  | .local _ .vmem, ⟨27, _⟩ => ⟨S1x2560, .i32⟩
  | .local _ .vmem, ⟨28, _⟩ => ⟨S1x2560, .i32⟩
  | .local _ .vmem, ⟨29, _⟩ => ⟨S2560x128, .bf16⟩
  | .local _ .vmem, ⟨30, _⟩ => ⟨S2560x128, .bf16⟩
  | .local _ .vmem, ⟨31, _⟩ => ⟨S2560x128, .bf16⟩
  | .local _ .vmem, ⟨32, _⟩ => ⟨S2560x128, .bf16⟩
  | .local _ .vmem, ⟨33, _⟩ => ⟨S2560x128, .f32⟩
  | .local _ .vmem, ⟨34, _⟩ => ⟨S2560x1, .i32⟩
  | .local _ .vmem, ⟨35, _⟩ => ⟨S2560x1, .i32⟩
  | .local _ .vmem, ⟨36, _⟩ => ⟨S1x2560, .i32⟩
  | .local _ .vmem, ⟨37, _⟩ => ⟨S1x2560, .i32⟩
  | .local _ .vmem, ⟨38, _⟩ => ⟨S2560x128, .bf16⟩
  | .local _ .vmem, ⟨39, _⟩ => ⟨S2560x128, .bf16⟩
  | .local _ .vmem, ⟨40, _⟩ => ⟨S2560x1, .f32⟩
  | .local _ .vmem, ⟨41, _⟩ => ⟨S2560x1, .f32⟩
  | .local _ .vmem, ⟨42, _⟩ => ⟨S2560x128, .bf16⟩
  | .local _ .vmem, ⟨43, _⟩ => ⟨S2560x128, .bf16⟩
  | .local _ .vmem, ⟨44, _⟩ => ⟨S128x128, .bf16⟩
  | .local _ .vmem, ⟨45, _⟩ => ⟨S128x128, .bf16⟩
  | .local _ .vmem, ⟨46, _⟩ => ⟨S1x128, .f32⟩
  | .local _ .vmem, ⟨47, _⟩ => ⟨S2560x128, .bf16⟩
  | .local _ .vmem, ⟨48, _⟩ => ⟨S2560x128, .bf16⟩
  | .local _ .vmem, ⟨49, _⟩ => ⟨S2560x128, .f32⟩
  | .local _ .vmem, ⟨50, _⟩ => ⟨S2560x128, .bf16⟩
  | .local _ .vmem, ⟨51, _⟩ => ⟨S2560x128, .bf16⟩
  | .local _ .vmem, ⟨52, _⟩ => ⟨S128x2, .bf16⟩
  | .local _ .vmem, ⟨53, _⟩ => ⟨S1x2, .f32⟩
  | .local _ .vmem, ⟨54, _⟩ => ⟨S2560x2, .f32⟩
  | .local _ .vmem, ⟨55, _⟩ => ⟨S2560x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg8_1 : Ref sig .tc := ⟨.vmem, 48, rfl⟩
abbrev cc3_scratch0 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem3_1 : DmaSem sig := 51

abbrev nD : Nat := 1
abbrev τ : Topo := Topo.v7x

variable {F : FTy → Type} [FloatOps F]

abbrev grid0 : Pipeline.Grid := ⟨2, ![625, 40], ![false, false]⟩

def k0_cond2 (i : grid0.Coords) : BitVec 1 :=
  let arg1 : BitVec 32 := BitVec.ofNat 32 (i 1).val
  let c39_i32 : BitVec 32 := 39#32
  let v21 : BitVec 1 := Scalar.cmpi .eq arg1 c39_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2560x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2560 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2560x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![40, 625], ![false, false]⟩

def k1_cond2 (i : grid1.Coords) : BitVec 1 :=
  let arg1 : BitVec 32 := BitVec.ofNat 32 (i 1).val
  let c624_i32 : BitVec 32 := 624#32
  let v21 : BitVec 1 := Scalar.cmpi .eq arg1 c624_i32
  let v22 : BitVec 32 := Scalar.extui v21
  let c0_i32_10 : BitVec 32 := 0#32
  let v23 : BitVec 1 := Scalar.cmpi .ne v22 c0_i32_10
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2560 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2560x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2560x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2560x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2560x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![625, 40], ![false, false]⟩

def k2_cond2 (i : grid2.Coords) : BitVec 1 :=
  let arg1 : BitVec 32 := BitVec.ofNat 32 (i 1).val
  let c39_i32 : BitVec 32 := 39#32
  let v21 : BitVec 1 := Scalar.cmpi .eq arg1 c39_i32
  let v22 : BitVec 32 := Scalar.extui v21
  let c0_i32_10 : BitVec 32 := 0#32
  let v23 : BitVec 1 := Scalar.cmpi .ne v22 c0_i32_10
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2560x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2560 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2560x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2560x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![40, 625], ![false, false]⟩

def k3_cond2 (i : grid3.Coords) : BitVec 1 :=
  let arg1 : BitVec 32 := BitVec.ofNat 32 (i 1).val
  let c624_i32 : BitVec 32 := 624#32
  let v21 : BitVec 1 := Scalar.cmpi .eq arg1 c624_i32
  let v22 : BitVec 32 := Scalar.extui v21
  let c0_i32_10 : BitVec 32 := 0#32
  let v23 : BitVec 1 := Scalar.cmpi .ne v22 c0_i32_10
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2560x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x2560 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2560x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2560x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2560x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S2560x128 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2560x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2560x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  shapeCasts_S1600000_S1600000x1 : S1600000.ShapeCasts S1600000x1
  slices_S2x1600000_S1x1600000_1_0 : S2x1600000.Slices ![1, 0] S1x1600000
  shapeCasts_S1600000_S1x1600000 : S1600000.ShapeCasts S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S102400_S1x102400 : S102400.ShapeCasts S1x102400
  shapeCasts_S102400_S102400x1 : S102400.ShapeCasts S102400x1
  bcast_S_S2400x128 : S_.BroadcastsInDim S2400x128 (![] : Fin 0 → Fin S2400x128.rank)
  concatenates_S100000x128_S2400x128_S102400x128_d0 : Shape.Concatenates [S100000x128, S2400x128] S102400x128 0
  bitsLt_bf16_f32 : FTy.bits .bf16 < FTy.bits .f32
  bcast_S_S2400x1 : S_.BroadcastsInDim S2400x1 (![] : Fin 0 → Fin S2400x1.rank)
  concatenates_S100000x1_S2400x1_S102400x1_d0 : Shape.Concatenates [S100000x1, S2400x1] S102400x1 0
  shapeCasts_S128_S1x128 : S128.ShapeCasts S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S2560x1_S2560x2560 : S2560x1.Broadcasts S2560x2560
  broadcasts_S1x2560_S2560x2560 : S1x2560.Broadcasts S2560x2560
  natLt_1_32 : 1 < 32
  packedbf16_S2560x128_S2560x128_0_0 : (Rect.unit (s := S2560x128) ![0, 0] S2560x128.size inb_S2560x128_S2560x128_0_0).PackedRows (EltTy.packing .bf16)
  broadcasts_S2560x1_S2560x128 : S2560x1.Broadcasts S2560x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2560x2 : S1x2.Broadcasts S2560x2
  inb_S2560x2_S2560x2_0_0 : ∀ a, (![0, 0] : Fin 2 → Nat) a + S2560x2.size a ≤ S2560x2.size a
  h_S2560x2 : 0 < S2560x2.numel
  slices_S102400x2_S100000x2_0_0 : S102400x2.Slices ![0, 0] S100000x2
  scatter_S100000_S1600000x1_S1600000_n_0_0_1_wf : ScatterDims.WF S100000 S1600000x1 S1600000 [] [0] [0] 1
  dot_S2560x2560_S2560x128_S2560x128_1_0_0_1_n_n_wf : DotDims.WF S2560x2560 S2560x128 S2560x128 [1] [0] [0] [1] [] []
  dot_S2560x128_S128x128_S2560x128_1_0_0_1_n_n_wf : DotDims.WF S2560x128 S128x128 S2560x128 [1] [0] [0] [1] [] []
  dot_S2560x128_S128x2_S2560x2_1_0_0_1_n_n_wf : DotDims.WF S2560x128 S128x2 S2560x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x1.size a ≤ S1600000x1.size a
  hwx0_0 : ∀ i : grid0.Coords, EltTy.bits .i32 = 32 ∨ (Rect.block (s := S1600000x1) S2560x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2560.size a ≤ S1x102400.size a
  hwx0_1 : ∀ i : grid0.Coords, EltTy.bits .i32 = 32 ∨ (Rect.block (s := S1x102400) S1x2560.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S102400x128.size a
  hwx0_2 : ∀ i : grid0.Coords, EltTy.bits .bf16 = 32 ∨ (Rect.block (s := S102400x128) S2560x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x128.size a ≤ S1600000x128.size a
  hwx0_3 : ∀ i : grid0.Coords, EltTy.bits .bf16 = 32 ∨ (Rect.block (s := S1600000x128) S2560x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x1.size a ≤ S102400x1.size a
  hwx1_0 : ∀ i : grid1.Coords, EltTy.bits .i32 = 32 ∨ (Rect.block (s := S102400x1) S2560x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2560.size a ≤ S1x1600000.size a
  hwx1_1 : ∀ i : grid1.Coords, EltTy.bits .i32 = 32 ∨ (Rect.block (s := S1x1600000) S1x2560.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x128.size a ≤ S1600000x128.size a
  hwx1_2 : ∀ i : grid1.Coords, EltTy.bits .bf16 = 32 ∨ (Rect.block (s := S1600000x128) S2560x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x1.size a ≤ S102400x1.size a
  hwx1_3 : ∀ i : grid1.Coords, EltTy.bits .f32 = 32 ∨ (Rect.block (s := S102400x1) S2560x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2560x128.size a ≤ S102400x128.size a
  hwx1_4 : ∀ i : grid1.Coords, EltTy.bits .bf16 = 32 ∨ (Rect.block (s := S102400x128) S2560x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2560x128.size a ≤ S102400x128.size a
  hwx1_8 : ∀ i : grid1.Coords, EltTy.bits .bf16 = 32 ∨ (Rect.block (s := S102400x128) S2560x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x1.size a ≤ S1600000x1.size a
  hwx2_0 : ∀ i : grid2.Coords, EltTy.bits .i32 = 32 ∨ (Rect.block (s := S1600000x1) S2560x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2560.size a ≤ S1x102400.size a
  hwx2_1 : ∀ i : grid2.Coords, EltTy.bits .i32 = 32 ∨ (Rect.block (s := S1x102400) S1x2560.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2560x128.size a ≤ S102400x128.size a
  hwx2_2 : ∀ i : grid2.Coords, EltTy.bits .bf16 = 32 ∨ (Rect.block (s := S102400x128) S2560x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2560x128.size a ≤ S1600000x128.size a
  hwx2_3 : ∀ i : grid2.Coords, EltTy.bits .bf16 = 32 ∨ (Rect.block (s := S1600000x128) S2560x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2560x1.size a ≤ S102400x1.size a
  hwx3_0 : ∀ i : grid3.Coords, EltTy.bits .i32 = 32 ∨ (Rect.block (s := S102400x1) S2560x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2560.size a ≤ S1x1600000.size a
  hwx3_1 : ∀ i : grid3.Coords, EltTy.bits .i32 = 32 ∨ (Rect.block (s := S1x1600000) S1x2560.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2560x128.size a ≤ S1600000x128.size a
  hwx3_2 : ∀ i : grid3.Coords, EltTy.bits .bf16 = 32 ∨ (Rect.block (s := S1600000x128) S2560x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2560x1.size a ≤ S102400x1.size a
  hwx3_3 : ∀ i : grid3.Coords, EltTy.bits .f32 = 32 ∨ (Rect.block (s := S102400x1) S2560x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2560x128.size a ≤ S102400x128.size a
  hwx3_4 : ∀ i : grid3.Coords, EltTy.bits .bf16 = 32 ∨ (Rect.block (s := S102400x128) S2560x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2560x128.size a ≤ S102400x128.size a
  hwx3_8 : ∀ i : grid3.Coords, EltTy.bits .bf16 = 32 ∨ (Rect.block (s := S102400x128) S2560x128.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2560x128.size a ≤ S102400x128.size a
  hwx4_0 : ∀ i : grid4.Coords, EltTy.bits .bf16 = 32 ∨ (Rect.block (s := S102400x128) S2560x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .bf16 = 32 ∨ (Rect.block (s := S128x2) S128x2.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2560x2.size a ≤ S102400x2.size a
  hwx4_3 : ∀ i : grid4.Coords, EltTy.bits .f32 = 32 ∨ (Rect.block (s := S102400x2) S2560x2.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2560x2560_S2560x128_S2560x128_1_0_0_1_n_n : DotDims S2560x2560 S2560x128 S2560x128 where
  lhsContracting := [1]
  rhsContracting := [0]
  lhsNonContracting := [0]
  rhsNonContracting := [1]
  lhsBatch := []
  rhsBatch := []
  wf := dot_S2560x2560_S2560x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x128_S128x2_S2560x2_1_0_0_1_n_n : DotDims S2560x128 S128x2 S2560x2 where
  lhsContracting := [1]
  rhsContracting := [0]
  lhsNonContracting := [0]
  rhsNonContracting := [1]
  lhsBatch := []
  rhsBatch := []
  wf := dot_S2560x128_S128x2_S2560x2_1_0_0_1_n_n_wf

abbrev win0_0 : Pipeline.Window sig grid0 :=
  Pipeline.Window.ofSpec (Memref.whole main_v2) S2560x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2560x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v20) S2560x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2560.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2560x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2560x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2560x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S2560x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v2) S2560x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x2560.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2560x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2560x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v20) S2560x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x2560.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S2560x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25) S2560x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S2560x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v31) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v33) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v35) S2560x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

abbrev win4_0 : Pipeline.Window sig grid4 :=
  Pipeline.Window.ofSpec (Memref.whole main_v35) S2560x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S2560x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x2, .f32⟩
  | .hbm, ⟨76, _⟩ => ⟨S1x2, .f32⟩
  | .hbm, ⟨77, _⟩ => ⟨S100000x2, .f32⟩
  | .hbm, ⟨78, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.PreSrc.lean ====
import proofs.«407445_j30339648979088_1_alg».proof.Pre_finite_inputs
import Idealize.ShloMosaic.Lib.ReduceAll
import Idealize.ShloMosaic.Lib.ValueIdx
import Idealize.ShloMosaic.Lib.Pipeline.Value

set_option maxRecDepth 16384

noncomputable section

namespace Cert.PreSrc

open Idealize.ShloMosaic Idealize.ShloMosaic.ValueIdx
open Cert.Pre_finite_inputs

variable [Cert.Pre_finite_inputs.Facts]

instance : Subsingleton S_.Idx := ⟨fun a b => funext fun d => d.elim0⟩

theorem row0_apply (a1 : IVec S2x1600000 32) (h₁ : S2x1600000.Slices ![0, 0] S1x1600000) (h₂ : S1x1600000.ShapeCasts S1600000)
    (e : Fin 1600000) :
    shapeCast S1600000 (extractStridedSlice S1x1600000 ![0, 0] a1 h₁) h₂ (ix1 e) = a1 (ix2 (0 : Fin 2) e) := by
  refine (shapeCast_apply _ h₂ (ix1 e) (ix2 (0 : Fin 1) e) ?_).trans ?_
  · rw [Shape.rowMajor_val_two, Shape.rowMajor_val_one]
    show (0 : Nat) * 1600000 + e.val = e.val
    omega
  · refine extractStridedSlice_apply _ a1 h₁ (ix2 (0 : Fin 1) e) (ix2 (0 : Fin 2) e) (fun a => ?_)
    match a with
    | ⟨0, _⟩ => rfl
    | ⟨1, _⟩ => show e.val = 0 + e.val; omega

theorem src_range (a0 : FVec Ideal S100000x128 .f32) (a1 : IVec S2x1600000 32) (a2 : FVec Ideal S128x128 .f32)
    (a3 : FVec Ideal S128x128 .f32) (a4 : FVec Ideal S128 .f32) (a5 : FVec Ideal S128x128 .f32) (a6 : FVec Ideal S128x128 .f32)
    (a7 : FVec Ideal S128 .f32) (a8 : FVec Ideal S128x2 .f32) (a9 : FVec Ideal S2 .f32)
    (h : Cert.Pre_finite_inputs.fn (F := Ideal) a0 a1 a2 a3 a4 a5 a6 a7 a8 a9 = fun _ => 1#1) :
    ∀ e : Fin 1600000, 0 ≤ (a1 (ix2 (0 : Fin 2) e)).toInt ∧ (a1 (ix2 (0 : Fin 2) e)).toInt < 100000 := by
  intro e
  have e0 := congrFun h ix0
  dsimp only [fn, fn_part1, fn_part2, fn_part3, andi] at e0
  obtain ⟨-, e1⟩ := IntOp.andi_eq_one.1 e0
  have e2 := Host.reduce_andi_all _ _ _ _ _ e1 (ix1 e)
  dsimp only [andi, cmpi, broadcastInDim, constantI] at e2
  obtain ⟨hge, hlt⟩ := IntOp.andi_eq_one.1 e2
  rw [row0_apply] at hge hlt
  rw [IntOp.cmpi_sge] at hge
  rw [IntOp.cmpi_slt] at hlt
  exact ⟨by simpa using hge, by simpa using hlt⟩

end Cert.PreSrc

end
-- ==== Proof.LibGatherScatter.lean ====
import Idealize.ShloMosaic.PureOps.Ideal
import Idealize.ShloMosaic.Lib.ValueIdx

noncomputable section

open scoped BigOperators
open Idealize.ShloMosaic Idealize.ShloMosaic.ValueIdx

namespace GCN.GS

abbrev SN : Shape := ⟨1, ![100000]⟩
abbrev SNx128 : Shape := ⟨2, ![100000, 128]⟩
abbrev SM : Shape := ⟨1, ![1600000]⟩
abbrev SMx1 : Shape := ⟨2, ![1600000, 1]⟩
abbrev SMx128 : Shape := ⟨2, ![1600000, 128]⟩
def gd2 : GatherDims SNx128 SMx1 SMx128 := { offsetDims := [1], collapsedSliceDims := [0], operandBatchingDims := [], startIndicesBatchingDims := [], startIndexMap := [0], indexVectorDim := 1, sliceSizes := ![1, 128] }
def sd2 : ScatterDims SNx128 SMx1 SMx128 := { updateWindowDims := [1], insertedWindowDims := [0], scatterDimsToOperandDims := [0], indexVectorDim := 1 }
def sd1 : ScatterDims SN SMx1 SM := { updateWindowDims := [], insertedWindowDims := [0], scatterDimsToOperandDims := [0], indexVectorDim := 1 }
def rowOf (v : BitVec 32) : Fin 100000 := ⟨min v.toInt.toNat 99999, by omega⟩

theorem gather2_apply {α : Type} (x : SNx128.Idx → α) (idx : IVec SMx1 32) (e : Fin 1600000) (q : Fin 128) :
    Host.gather gd2 x idx (ix2 e q) = x (ix2 (rowOf (idx (ix2 e 0))) q) := by
  unfold Host.gather
  congr 1
  funext a
  refine Fin.ext ?_
  show gd2.start (ix2 e q) idx a + gd2.batchCoord (ix2 e q) a + gd2.offCoord (ix2 e q) a = _
  rw [GatherDims.batchCoord_eq_zero _ _ _ List.not_mem_nil, Nat.add_zero]
  match a with
  | ⟨0, _⟩ =>

    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ gd2.startIndexMap from List.mem_singleton.mpr rfl)]
    have hsi : gd2.siIdx (ix2 e q) ⟨List.idxOf (⟨0, by decide⟩ : Fin 2) gd2.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>

    have hs : gd2.start (ix2 e q) idx ⟨1, by decide⟩ = 0 := by
      unfold GatherDims.start
      rw [dif_neg (show (⟨1, by decide⟩ : Fin 2) ∉ gd2.startIndexMap by decide)]
    rw [hs, Nat.zero_add]
    rfl

def idxEquiv1 {n : Nat} : (⟨1, ![n]⟩ : Shape).Idx ≃ Fin n where
  toFun i := i 0
  invFun p := ix1 p
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem sd2_start0 (idx : IVec SMx1 32) (e : Fin 1600000) (f : Fin 128) :
    sd2.start (ix2 e f) idx 0 = (idx (ix2 e 0)).toInt := by
  unfold ScatterDims.start
  rw [dif_pos (show (0 : Fin 2) ∈ sd2.scatterDimsToOperandDims from List.mem_singleton.mpr rfl)]
  have hsi : sd2.siIdx (ix2 e f) ⟨List.idxOf (0 : Fin 2) sd2.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem sd2_resultIdx_eq (idx : IVec SMx1 32) (e : Fin 1600000) (f : Fin 128) (i : Fin 100000) (q : Fin 128) :
    sd2.resultIdx? (ix2 e f) idx = some (ix2 i q) ↔ (idx (ix2 e 0)).toInt = (i.val : ℤ) ∧ f = q := by
  have h0 : sd2.start (ix2 e f) idx 0 = (idx (ix2 e 0)).toInt := sd2_start0 idx e f
  have h1 : sd2.start (ix2 e f) idx 1 = 0 := by
    unfold ScatterDims.start
    rw [dif_neg (show (1 : Fin 2) ∉ sd2.scatterDimsToOperandDims by decide)]
  have w0 : sd2.window (ix2 e f) 0 = 0 := by
    unfold ScatterDims.window
    rw [dif_neg (show (0 : Fin 2) ∉ sd2.sKept by decide)]
  have w1 : sd2.window (ix2 e f) 1 = f.val := by
    unfold ScatterDims.window
    rw [dif_pos (show (1 : Fin 2) ∈ sd2.sKept by decide)]
    rfl
  have hs0 : SNx128.size 0 = 100000 := rfl
  have hs1 : SNx128.size 1 = 128 := rfl
  have hi := i.isLt
  have hq := q.isLt
  have hf := f.isLt
  unfold ScatterDims.resultIdx?
  constructor
  · intro h
    split at h
    · rename_i hall
      have hh := Option.some.inj h
      have e0 : (sd2.start (ix2 e f) idx 0 + (sd2.window (ix2 e f) 0 : ℤ)).toNat = i.val :=
        congrArg Fin.val (congrFun hh 0)
      have e1 : (sd2.start (ix2 e f) idx 1 + (sd2.window (ix2 e f) 1 : ℤ)).toNat = q.val :=
        congrArg Fin.val (congrFun hh 1)
      have p0 := (hall 0).1
      rw [h0, w0] at e0 p0
      rw [h1, w1] at e1
      refine ⟨by omega, Fin.ext (by omega)⟩
    · exact absurd h (by simp)
  · rintro ⟨hv, rfl⟩
    have hall : ∀ a, 0 ≤ sd2.start (ix2 e f) idx a + (sd2.window (ix2 e f) a : ℤ) ∧
        sd2.start (ix2 e f) idx a + (sd2.window (ix2 e f) a : ℤ) < (SNx128.size a : ℤ) := by
      refine Fin.forall_fin_two.2 ⟨?_, ?_⟩
      · rw [h0, w0, hs0, hv]; omega
      · rw [h1, w1, hs1]; omega
    rw [dif_pos hall]
    congr 1
    funext a
    refine Fin.ext ?_
    match a with
    | ⟨0, _⟩ =>
      show (sd2.start (ix2 e f) idx 0 + (sd2.window (ix2 e f) 0 : ℤ)).toNat = i.val
      rw [h0, w0, hv]; omega
    | ⟨1, _⟩ =>
      show (sd2.start (ix2 e f) idx 1 + (sd2.window (ix2 e f) 1 : ℤ)).toNat = f.val
      rw [h1, w1]; omega

theorem scatter2_apply (x0 : SNx128.Idx → EReal) (idx : IVec SMx1 32) (u : SMx128.Idx → EReal) (i : Fin 100000) (q : Fin 128) :
    Ideal.hostScatterAdd sd2 x0 idx u (ix2 i q) = x0 (ix2 i q) +
      ∑ e ∈ Finset.univ.filter (fun e : Fin 1600000 => (idx (ix2 e 0)).toInt = (i.val : ℤ)), u (ix2 e q) := by
  unfold Ideal.hostScatterAdd
  refine congrArg (fun t => x0 (ix2 i q) + t) ?_
  rw [Finset.sum_filter, Finset.sum_filter, sum_idx2]
  refine Finset.sum_congr rfl fun e _ => ?_
  by_cases hv : (idx (ix2 e 0)).toInt = (i.val : ℤ)
  · rw [if_pos hv]
    rw [Finset.sum_eq_single q]
    · rw [if_pos ((sd2_resultIdx_eq idx e q i q).2 ⟨hv, rfl⟩)]
    · intro f _ hfq
      rw [if_neg (fun h => hfq ((sd2_resultIdx_eq idx e f i q).1 h).2)]
    · intro h; exact absurd (Finset.mem_univ q) h
  · rw [if_neg hv]
    refine Finset.sum_eq_zero fun f _ => ?_
    rw [if_neg (fun h => hv ((sd2_resultIdx_eq idx e f i q).1 h).1)]

theorem sd1_resultIdx_eq (idx : IVec SMx1 32) (e : Fin 1600000) (i : Fin 100000) :
    sd1.resultIdx? (ix1 e) idx = some (ix1 i) ↔ (idx (ix2 e 0)).toInt = (i.val : ℤ) := by
  have h0 : sd1.start (ix1 e) idx 0 = (idx (ix2 e 0)).toInt := by
    unfold ScatterDims.start
    rw [dif_pos (show (0 : Fin 1) ∈ sd1.scatterDimsToOperandDims from List.mem_singleton.mpr rfl)]
    have hsi : sd1.siIdx (ix1 e) ⟨List.idxOf (0 : Fin 1) sd1.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have w0 : sd1.window (ix1 e) 0 = 0 := by
    unfold ScatterDims.window
    rw [dif_neg (show (0 : Fin 1) ∉ sd1.sKept by decide)]
  have hs0 : SN.size 0 = 100000 := rfl
  have hi := i.isLt
  unfold ScatterDims.resultIdx?
  constructor
  · intro h
    split at h
    · rename_i hall
      have hh := Option.some.inj h
      have e0 : (sd1.start (ix1 e) idx 0 + (sd1.window (ix1 e) 0 : ℤ)).toNat = i.val :=
        congrArg Fin.val (congrFun hh 0)
      have p0 := (hall 0).1
      rw [h0, w0] at e0 p0
      omega
    · exact absurd h (by simp)
  · intro hv
    have hall : ∀ a, 0 ≤ sd1.start (ix1 e) idx a + (sd1.window (ix1 e) a : ℤ) ∧
        sd1.start (ix1 e) idx a + (sd1.window (ix1 e) a : ℤ) < (SN.size a : ℤ) := by
      intro a
      obtain rfl : a = 0 := Subsingleton.elim _ _
      rw [h0, w0, hs0, hv]; omega
    rw [dif_pos hall]
    congr 1
    funext a
    obtain rfl : a = 0 := Subsingleton.elim _ _
    refine Fin.ext ?_
    show (sd1.start (ix1 e) idx 0 + (sd1.window (ix1 e) 0 : ℤ)).toNat = i.val
    rw [h0, w0, hv]; omega

theorem scatter1_apply (x0 : SN.Idx → EReal) (idx : IVec SMx1 32) (u : SM.Idx → EReal) (i : Fin 100000) :
    Ideal.hostScatterAdd sd1 x0 idx u (ix1 i) = x0 (ix1 i) +
      ∑ e ∈ Finset.univ.filter (fun e : Fin 1600000 => (idx (ix2 e 0)).toInt = (i.val : ℤ)), u (ix1 e) := by
  unfold Ideal.hostScatterAdd
  refine congrArg (fun t => x0 (ix1 i) + t) ?_
  rw [Finset.sum_filter, Finset.sum_filter, sum_idx1]
  refine Finset.sum_congr rfl fun e _ => ?_
  by_cases hv : (idx (ix2 e 0)).toInt = (i.val : ℤ)
  · rw [if_pos hv, if_pos ((sd1_resultIdx_eq idx e i).2 hv)]
  · rw [if_neg hv, if_neg (fun h => hv ((sd1_resultIdx_eq idx e i).1 h))]

end GCN.GS
-- ==== Proof.Spec.lean ====
import Idealize.ShloMosaic.PureOps.Ideal
import Idealize.ShloMosaic.Lib.ValueIdx
import proofs.«407445_j30339648979088_1_alg».proof.Proof.LibGatherScatter

noncomputable section

open scoped BigOperators
open Idealize.ShloMosaic Idealize.ShloMosaic.ValueIdx

namespace Cert.Spec

def into (dst : Fin 1600000 → BitVec 32) (n : Fin 100000) : Finset (Fin 1600000) :=
  Finset.univ.filter fun e => (dst e).toInt = (n.val : ℤ)

def deg (dst : Fin 1600000 → BitVec 32) (n : Fin 100000) : EReal := ∑ _e ∈ into dst n, (1 : EReal)

def invDeg (dst : Fin 1600000 → BitVec 32) (n : Fin 100000) : EReal := Ideal.div 1 (max (deg dst n) 1)

def mean (src dst : Fin 1600000 → BitVec 32) (h : Fin 100000 → Fin 128 → EReal) (n : Fin 100000) (k : Fin 128) : EReal :=
  (∑ e ∈ into dst n, h (GCN.GS.rowOf (src e)) k) * invDeg dst n

def sage (src dst : Fin 1600000 → BitVec 32) (h : Fin 100000 → Fin 128 → EReal) (Wl Wr : Fin 128 → Fin 128 → EReal)
    (b : Fin 128 → EReal) (n : Fin 100000) (j : Fin 128) : EReal :=
  max (((∑ k : Fin 128, mean src dst h n k * Wl k j) + (∑ k : Fin 128, h n k * Wr k j)) + b j) 0

def out (src dst : Fin 1600000 → BitVec 32) (x : Fin 100000 → Fin 128 → EReal) (W1l W1r : Fin 128 → Fin 128 → EReal)
    (b1 : Fin 128 → EReal) (W2l W2r : Fin 128 → Fin 128 → EReal) (b2 : Fin 128 → EReal) (Wlin : Fin 128 → Fin 2 → EReal)
    (blin : Fin 2 → EReal) (n : Fin 100000) (j : Fin 2) : EReal :=
  (∑ k : Fin 128, sage src dst (sage src dst x W1l W1r b1) W2l W2r b2 n k * Wlin k j) + blin j

def G (a0 : (⟨2, ![100000, 128]⟩ : Shape).Idx → EReal) (a1 : (⟨2, ![2, 1600000]⟩ : Shape).Idx → BitVec 32)
    (a2 a3 : (⟨2, ![128, 128]⟩ : Shape).Idx → EReal) (a4 : (⟨1, ![128]⟩ : Shape).Idx → EReal)
    (a5 a6 : (⟨2, ![128, 128]⟩ : Shape).Idx → EReal) (a7 : (⟨1, ![128]⟩ : Shape).Idx → EReal)
    (a8 : (⟨2, ![128, 2]⟩ : Shape).Idx → EReal) (a9 : (⟨1, ![2]⟩ : Shape).Idx → EReal) :
    (⟨2, ![100000, 2]⟩ : Shape).Idx → EReal :=
  fun i => out (fun e => a1 (ix2 (0 : Fin 2) e)) (fun e => a1 (ix2 (1 : Fin 2) e)) (fun n k => a0 (ix2 n k))
    (fun k j => a2 (ix2 k j)) (fun k j => a3 (ix2 k j)) (fun j => a4 (ix1 j))
    (fun k j => a5 (ix2 k j)) (fun k j => a6 (ix2 k j)) (fun j => a7 (ix1 j))
    (fun k j => a8 (ix2 k j)) (fun j => a9 (ix1 j)) ⟨(i 0).val, (i 0).isLt⟩ ⟨(i 1).val, (i 1).isLt⟩

end Cert.Spec

end
-- ==== Proof.RefStages.lean ====
import proofs.«407445_j30339648979088_1_alg».proof.ReferenceIdeal
import proofs.«407445_j30339648979088_1_alg».proof.Proof.Spec
import Idealize.ShloMosaic.Lib.Pipeline.Value
import Idealize.ShloMosaic.Lib.StackMember
import Idealize.ShloMosaic.Lib.IdealHost
import Idealize.ShloMosaic.Lib.ValueLayout
import Idealize.ShloMosaic.PureOps.Ideal.Laws

noncomputable section

open scoped BigOperators
open Idealize.ShloMosaic Idealize.ShloMosaic.ValueIdx

namespace Cert.ReferenceIdeal.RefValue

open Cert.ReferenceIdeal

variable [Facts]
open Facts₀

def srcW (a1 : IVec S2x1600000 32) : IVec S1600000 32 :=
  shapeCast S1600000 (extractStridedSlice S1x1600000 ![0, 0] a1 slices_S2x1600000_S1x1600000_0_0) shapeCasts_S1x1600000_S1600000
def dstW (a1 : IVec S2x1600000 32) : IVec S1600000 32 :=
  shapeCast S1600000 (extractStridedSlice S1x1600000 ![1, 0] a1 slices_S2x1600000_S1x1600000_1_0) shapeCasts_S1x1600000_S1600000

theorem srcW_apply (a1 : IVec S2x1600000 32) (e : Fin 1600000) : srcW a1 (ix1 e) = a1 (ix2 (0 : Fin 2) e) :=
  (shapeCast_1a_a_apply _ _ e).trans (slice2_axis0_apply 0 a1 _ (0 : Fin 1) e 0 rfl)
theorem dstW_apply (a1 : IVec S2x1600000 32) (e : Fin 1600000) : dstW a1 (ix1 e) = a1 (ix2 (1 : Fin 2) e) :=
  (shapeCast_1a_a_apply _ _ e).trans (slice2_axis0_apply 1 a1 _ (0 : Fin 1) e 1 rfl)

def colOf (w : IVec S1600000 32) : IVec S1600000x1 32 := broadcastInDim S1600000x1 ![0] bcast_S1600000_S1600000x1_0 w

/-- A vector laid out as a column, or as a row, read back at its index. -/
theorem col_apply {α : Type} {n : ℕ} (hn : ¬ n = 1) (h : (⟨1, ![n]⟩ : Shape).BroadcastsInDim ⟨2, ![n, 1]⟩ ![0])
    (v : (⟨1, ![n]⟩ : Shape).Idx → α) (p : Fin n) : broadcastInDim ⟨2, ![n, 1]⟩ ![0] h v (ix2 p (0 : Fin 1)) = v (ix1 p) :=
  broadcastInDim_apply _ h v _ _ fun a => match a with | ⟨0, _⟩ => (if_neg hn).symm
theorem row_apply {α : Type} {m : ℕ} (hm : ¬ m = 1) (h : (⟨1, ![m]⟩ : Shape).BroadcastsInDim ⟨2, ![1, m]⟩ ![1])
    (v : (⟨1, ![m]⟩ : Shape).Idx → α) (q : Fin m) : broadcastInDim ⟨2, ![1, m]⟩ ![1] h v (ix2 (0 : Fin 1) q) = v (ix1 q) :=
  broadcastInDim_apply _ h v _ _ fun a => match a with | ⟨0, _⟩ => (if_neg hm).symm

theorem colOf_apply (w : IVec S1600000 32) (e : Fin 1600000) : colOf w (ix2 e (0 : Fin 1)) = w (ix1 e) :=
  col_apply (by decide : ¬ (1600000 : ℕ) = 1) _ w e

theorem splatF_apply {t : Shape} (h : S_.BroadcastsInDim t (![] : Fin 0 → Fin t.rank)) (b : BitVec 32) (i : t.Idx) :
    broadcastInDim t (![] : Fin 0 → Fin t.rank) h (constant (F := Ideal) S_ .f32 b) i = Ideal.ofBits .f32 b :=
  broadcastInDim_scalar_apply h _ i

theorem perNode_apply (v : FVec Ideal S100000 .f32) (n : Fin 100000) (k : Fin 128) :
    broadcastInDim S100000x128 ![0, 1] bcast_S100000x1_S100000x128_0_1
      (broadcastInDim S100000x1 ![0] bcast_S100000_S100000x1_0 v) (ix2 n k) = v (ix1 n) :=
  (broadcastInDim_apply _ _ _ (ix2 n k) (ix2 n (0 : Fin 1)) fun a => match a with
    | ⟨0, _⟩ => (if_neg (by decide : ¬ (100000 : ℕ) = 1)).symm
    | ⟨1, _⟩ => (if_pos rfl).symm).trans (col_apply (by decide : ¬ (100000 : ℕ) = 1) _ v n)

/-- A bias vector added to every row, read at an index. -/
theorem bias_apply {m : ℕ} (hm : ¬ m = 1) (h₁ : (⟨1, ![m]⟩ : Shape).BroadcastsInDim ⟨2, ![1, m]⟩ ![1])
    (h₂ : (⟨2, ![1, m]⟩ : Shape).BroadcastsInDim ⟨2, ![100000, m]⟩ ![0, 1]) (b : FVec Ideal ⟨1, ![m]⟩ .f32) (n : Fin 100000) (j : Fin m) :
    broadcastInDim ⟨2, ![100000, m]⟩ ![0, 1] h₂ (broadcastInDim ⟨2, ![1, m]⟩ ![1] h₁ b) (ix2 n j) = b (ix1 j) :=
  (broadcastInDim_apply _ h₂ _ (ix2 n j) (ix2 (0 : Fin 1) j) fun a => match a with
    | ⟨0, _⟩ => (if_pos rfl).symm
    | ⟨1, _⟩ => (if_neg hm).symm).trans (row_apply hm h₁ b j)

def wrapW (a1 : IVec S2x1600000 32) : IVec S1600000 32 :=
  select (cmpi .slt (srcW a1) (broadcastInDim S1600000 ![] bcast_S_S1600000 (constantI S_ 32 0#32)))
    (addi (srcW a1) (broadcastInDim S1600000 ![] bcast_S_S1600000 (constantI S_ 32 100000#32))) (srcW a1)

theorem wrapW_apply (a1 : IVec S2x1600000 32) (e : Fin 1600000) (h : 0 ≤ (a1 (ix2 (0 : Fin 2) e)).toInt) :
    wrapW a1 (ix1 e) = a1 (ix2 (0 : Fin 2) e) := by
  unfold wrapW
  rw [select_apply]
  have hc : cmpi .slt (srcW a1) (broadcastInDim S1600000 ![] bcast_S_S1600000 (constantI S_ 32 0#32)) (ix1 e) = 0#1 := by
    show IntOp.cmpi .slt (srcW a1 (ix1 e)) (broadcastInDim S1600000 ![] bcast_S_S1600000 (constantI S_ 32 0#32) (ix1 e)) = 0#1
    rw [broadcastInDim_scalar_apply, srcW_apply]
    unfold IntOp.cmpi
    show BitVec.ofBool ((a1 (ix2 (0 : Fin 2) e)).slt 0#32) = 0#1
    have : (a1 (ix2 (0 : Fin 2) e)).slt 0#32 = false := by
      rw [BitVec.slt_eq_decide]
      simp only [BitVec.toInt_zero, decide_eq_false_iff_not, not_lt]
      exact h
    rw [this]; rfl
  rw [hc, select_zero, srcW_apply]

theorem dot128_apply (A : FVec Ideal S100000x128 .f32) (B : FVec Ideal S128x128 .f32) (n : Fin 100000) (j : Fin 128) :
    Host.dotGeneral dot_S100000x128_S128x128_S100000x128_1_0_0_1_n_n none A B (ix2 n j)
      = ∑ k : Fin 128, A (ix2 n k) * B (ix2 k j) :=
  Idealize.ShloMosaic.StackMember.dotGeneral_plain_apply (m := 100000) (n := 128) (k := 128) none A B n j

theorem dot2_apply (A : FVec Ideal S100000x128 .f32) (B : FVec Ideal S128x2 .f32) (n : Fin 100000) (j : Fin 2) :
    Host.dotGeneral dot_S100000x128_S128x2_S100000x2_1_0_0_1_n_n none A B (ix2 n j)
      = ∑ k : Fin 128, A (ix2 n k) * B (ix2 k j) :=
  Idealize.ShloMosaic.StackMember.dotGeneral_plain_apply (m := 100000) (n := 2) (k := 128) none A B n j

theorem scatterAdd_ideal {s si su : Shape} {w : Nat} {φ : FTy} (d : ScatterDims s si su) (x : FVec Ideal s φ)
    (idx : IVec si w) (upd : FVec Ideal su φ) : Host.scatterAdd d x idx upd = Ideal.hostScatterAdd d x idx upd := rfl

theorem into_eq (a1 : IVec S2x1600000 32) (n : Fin 100000) :
    Finset.univ.filter (fun e : Fin 1600000 => ((colOf (dstW a1)) (ix2 e (0 : Fin 1))).toInt = (n.val : ℤ))
      = Cert.Spec.into (fun e => a1 (ix2 (1 : Fin 2) e)) n :=
  Finset.filter_congr fun e _ => by rw [colOf_apply, dstW_apply]

def degT (a1 : IVec S2x1600000 32) : FVec Ideal S100000 .f32 :=
  Host.scatterAdd scatter_S100000_S1600000x1_S1600000_n_0_0_1
    (broadcastInDim S100000 ![] bcast_S_S100000 (constant S_ .f32 0x00000000#32))
    (colOf (dstW a1))
    (broadcastInDim S1600000 ![] bcast_S_S1600000 (constant S_ .f32 0x3F800000#32))

theorem degT_apply (a1 : IVec S2x1600000 32) (n : Fin 100000) :
    degT a1 (ix1 n) = Cert.Spec.deg (fun e => a1 (ix2 (1 : Fin 2) e)) n := by
  unfold degT
  rw [scatterAdd_ideal, show scatter_S100000_S1600000x1_S1600000_n_0_0_1 = GCN.GS.sd1 from rfl,
    GCN.GS.scatter1_apply, splatF_apply, Ideal.ofBits_zero_f32, zero_add, into_eq]
  exact Finset.sum_congr rfl fun e _ => by rw [splatF_apply, Ideal.ofBits_one_f32]

def invT (a1 : IVec S2x1600000 32) : FVec Ideal S100000 .f32 :=
  Host.divf (broadcastInDim S100000 ![] bcast_S_S100000 (constant S_ .f32 0x3F800000#32))
    (maximumf (degT a1) (broadcastInDim S100000 ![] bcast_S_S100000 (constant S_ .f32 0x3F800000#32)))

theorem invT_apply (a1 : IVec S2x1600000 32) (n : Fin 100000) :
    invT a1 (ix1 n) = Cert.Spec.invDeg (fun e => a1 (ix2 (1 : Fin 2) e)) n := by
  unfold invT Cert.Spec.invDeg
  rw [hostDivf_apply, maximumf_apply, splatF_apply, Ideal.ofBits_one_f32, degT_apply]

def gathT (h : FVec Ideal S100000x128 .f32) (a1 : IVec S2x1600000 32) : FVec Ideal S1600000x128 .f32 :=
  Host.gather gather_S100000x128_S1600000x1_S1600000x128_1_0_n_n_0_1_1128 h (colOf (wrapW a1))

theorem gathT_apply (h : FVec Ideal S100000x128 .f32) (a1 : IVec S2x1600000 32)
    (hsrc : ∀ e : Fin 1600000, 0 ≤ (a1 (ix2 (0 : Fin 2) e)).toInt ∧ (a1 (ix2 (0 : Fin 2) e)).toInt < 100000)
    (e : Fin 1600000) (q : Fin 128) :
    gathT h a1 (ix2 e q) = h (ix2 (GCN.GS.rowOf (a1 (ix2 (0 : Fin 2) e))) q) := by
  unfold gathT
  show Host.gather GCN.GS.gd2 h _ (ix2 e q) = _
  rw [GCN.GS.gather2_apply, colOf_apply, wrapW_apply a1 e (hsrc e).1]

def aggT (h : FVec Ideal S100000x128 .f32) (a1 : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (colOf (dstW a1)) (gathT h a1)

theorem aggT_apply (h : FVec Ideal S100000x128 .f32) (a1 : IVec S2x1600000 32)
    (hsrc : ∀ e : Fin 1600000, 0 ≤ (a1 (ix2 (0 : Fin 2) e)).toInt ∧ (a1 (ix2 (0 : Fin 2) e)).toInt < 100000)
    (n : Fin 100000) (k : Fin 128) :
    aggT h a1 (ix2 n k) = ∑ e ∈ Cert.Spec.into (fun e => a1 (ix2 (1 : Fin 2) e)) n,
      h (ix2 (GCN.GS.rowOf (a1 (ix2 (0 : Fin 2) e))) k) := by
  unfold aggT
  rw [scatterAdd_ideal, show scatter_S100000x128_S1600000x1_S1600000x128_1_0_0_1 = GCN.GS.sd2 from rfl,
    GCN.GS.scatter2_apply, splatF_apply, Ideal.ofBits_zero_f32, zero_add, into_eq]
  exact Finset.sum_congr rfl fun e _ => by rw [gathT_apply h a1 hsrc]

def sageT (h : FVec Ideal S100000x128 .f32) (a1 : IVec S2x1600000 32) (Wl Wr : FVec Ideal S128x128 .f32)
    (b : FVec Ideal S128 .f32) : FVec Ideal S100000x128 .f32 :=
  maximumf
    (addf
      (addf
        (Host.dotGeneral dot_S100000x128_S128x128_S100000x128_1_0_0_1_n_n none
          (mulf (aggT h a1)
            (broadcastInDim S100000x128 ![0, 1] bcast_S100000x1_S100000x128_0_1
              (broadcastInDim S100000x1 ![0] bcast_S100000_S100000x1_0 (invT a1)))) Wl)
        (Host.dotGeneral dot_S100000x128_S128x128_S100000x128_1_0_0_1_n_n none h Wr))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

theorem sageT_apply (h : FVec Ideal S100000x128 .f32) (a1 : IVec S2x1600000 32) (Wl Wr : FVec Ideal S128x128 .f32)
    (b : FVec Ideal S128 .f32)
    (hsrc : ∀ e : Fin 1600000, 0 ≤ (a1 (ix2 (0 : Fin 2) e)).toInt ∧ (a1 (ix2 (0 : Fin 2) e)).toInt < 100000)
    (n : Fin 100000) (j : Fin 128) :
    sageT h a1 Wl Wr b (ix2 n j)
      = Cert.Spec.sage (fun e => a1 (ix2 (0 : Fin 2) e)) (fun e => a1 (ix2 (1 : Fin 2) e)) (fun n k => h (ix2 n k))
          (fun k j => Wl (ix2 k j)) (fun k j => Wr (ix2 k j)) (fun j => b (ix1 j)) n j := by
  have hk : ∀ k : Fin 128,
      mulf (aggT h a1)
        (broadcastInDim S100000x128 ![0, 1] bcast_S100000x1_S100000x128_0_1
          (broadcastInDim S100000x1 ![0] bcast_S100000_S100000x1_0 (invT a1))) (ix2 n k)
        = Cert.Spec.mean (fun e => a1 (ix2 (0 : Fin 2) e)) (fun e => a1 (ix2 (1 : Fin 2) e)) (fun n k => h (ix2 n k)) n k := by
    intro k
    unfold Cert.Spec.mean
    rw [mulf_apply, aggT_apply h a1 hsrc, perNode_apply, invT_apply]
  unfold sageT Cert.Spec.sage
  rw [maximumf_apply, addf_apply, addf_apply, dot128_apply, dot128_apply, bias_apply (by decide : ¬ (128 : ℕ) = 1), splatF_apply,
    Ideal.ofBits_zero_f32]
  simp only [hk]

def outT (a0 : FVec Ideal S100000x128 .f32) (a1 : IVec S2x1600000 32) (a2 a3 : FVec Ideal S128x128 .f32)
    (a4 : FVec Ideal S128 .f32) (a5 a6 : FVec Ideal S128x128 .f32) (a7 : FVec Ideal S128 .f32)
    (a8 : FVec Ideal S128x2 .f32) (a9 : FVec Ideal S2 .f32) : FVec Ideal S100000x2 .f32 :=
  addf
    (Host.dotGeneral dot_S100000x128_S128x2_S100000x2_1_0_0_1_n_n none (sageT (sageT a0 a1 a2 a3 a4) a1 a5 a6 a7) a8)
    (broadcastInDim S100000x2 ![0, 1] bcast_S1x2_S100000x2_0_1 (broadcastInDim S1x2 ![1] bcast_S2_S1x2_1 a9))

theorem outT_eq (a0 : FVec Ideal S100000x128 .f32) (a1 : IVec S2x1600000 32) (a2 a3 : FVec Ideal S128x128 .f32)
    (a4 : FVec Ideal S128 .f32) (a5 a6 : FVec Ideal S128x128 .f32) (a7 : FVec Ideal S128 .f32)
    (a8 : FVec Ideal S128x2 .f32) (a9 : FVec Ideal S2 .f32)
    (hsrc : ∀ e : Fin 1600000, 0 ≤ (a1 (ix2 (0 : Fin 2) e)).toInt ∧ (a1 (ix2 (0 : Fin 2) e)).toInt < 100000) :
    outT a0 a1 a2 a3 a4 a5 a6 a7 a8 a9 = Cert.Spec.G a0 a1 a2 a3 a4 a5 a6 a7 a8 a9 := by
  funext i
  obtain ⟨n, j, rfl⟩ : ∃ (n : Fin 100000) (j : Fin 2), i = ix2 n j := ⟨i 0, i 1, eq_ix2 i⟩
  unfold outT
  rw [addf_apply, dot2_apply, bias_apply (by decide : ¬ (2 : ℕ) = 1)]
  simp only [sageT_apply _ a1 _ _ _ hsrc]
  rfl

end Cert.ReferenceIdeal.RefValue

end
-- ==== Proof.Ref.lean ====
import proofs.«407445_j30339648979088_1_alg».proof.Defs
import proofs.«407445_j30339648979088_1_alg».proof.Proof.Gen.ReferenceIdeal
import proofs.«407445_j30339648979088_1_alg».proof.Proof.Gen.Pre_finite_inputs
import proofs.«407445_j30339648979088_1_alg».proof.Proof.Gen.ReferenceIdeal.Run
import proofs.«407445_j30339648979088_1_alg».proof.Proof.Gen.ReferenceIdeal.Read
import proofs.«407445_j30339648979088_1_alg».proof.Proof.RefStages

noncomputable section

open Idealize.ShloMosaic Idealize.SL.Sem Idealize.ShloMosaic.ValueIdx

namespace Cert.ReferenceIdeal.RefValue

open Cert.ReferenceIdeal

theorem frame_ri : Cert.frame_ReferenceIdeal :=
  fun m ρ _ => (θ_run Cert.ReferenceIdeal.defs _ _).mono (fun _ h c => (h c).2)
    (Cert.ReferenceIdeal.Value.run (F := Ideal) m ρ)

set_option maxRecDepth 8192 in
theorem val_eq_outT (a0 : (⟨S100000x128, .f32⟩ : BufTy).Contents (Elt Ideal)) (a1 : (⟨S2x1600000, .i32⟩ : BufTy).Contents (Elt Ideal))
    (a2 a3 : (⟨S128x128, .f32⟩ : BufTy).Contents (Elt Ideal)) (a4 : (⟨S128, .f32⟩ : BufTy).Contents (Elt Ideal))
    (a5 a6 : (⟨S128x128, .f32⟩ : BufTy).Contents (Elt Ideal)) (a7 : (⟨S128, .f32⟩ : BufTy).Contents (Elt Ideal))
    (a8 : (⟨S128x2, .f32⟩ : BufTy).Contents (Elt Ideal)) (a9 : (⟨S2, .f32⟩ : BufTy).Contents (Elt Ideal)) :
    Cert.ReferenceIdeal.Read.val_main_v54 (F := Ideal) a0 a1 a2 a3 a4 a5 a6 a7 a8 a9 = outT a0 a1 a2 a3 a4 a5 a6 a7 a8 a9 := rfl

theorem result_eq (a0 : (⟨S100000x128, .f32⟩ : BufTy).Contents (Elt Ideal)) (a1 : (⟨S2x1600000, .i32⟩ : BufTy).Contents (Elt Ideal))
    (a2 a3 : (⟨S128x128, .f32⟩ : BufTy).Contents (Elt Ideal)) (a4 : (⟨S128, .f32⟩ : BufTy).Contents (Elt Ideal))
    (a5 a6 : (⟨S128x128, .f32⟩ : BufTy).Contents (Elt Ideal)) (a7 : (⟨S128, .f32⟩ : BufTy).Contents (Elt Ideal))
    (a8 : (⟨S128x2, .f32⟩ : BufTy).Contents (Elt Ideal)) (a9 : (⟨S2, .f32⟩ : BufTy).Contents (Elt Ideal))
    (hsrc : ∀ e : Fin 1600000, 0 ≤ (a1 (ix2 (0 : Fin 2) e)).toInt ∧ (a1 (ix2 (0 : Fin 2) e)).toInt < 100000) :
    Cert.ReferenceIdeal.Read.val_main_v54 (F := Ideal) a0 a1 a2 a3 a4 a5 a6 a7 a8 a9
      = Cert.Spec.G a0 a1 a2 a3 a4 a5 a6 a7 a8 a9 :=
  (val_eq_outT a0 a1 a2 a3 a4 a5 a6 a7 a8 a9).trans (outT_eq a0 a1 a2 a3 a4 a5 a6 a7 a8 a9 hsrc)

theorem run_result_eq (m : (ℓ : Loc nD τ sig) → Buf (Elt Ideal) ℓ) (c : Dev nD)
    (hsrc : ∀ e : Fin 1600000, 0 ≤ ((m ((c.tc : Thread nD τ).loc main_arg1)) (ix2 (0 : Fin 2) e)).toInt
      ∧ ((m ((c.tc : Thread nD τ).loc main_arg1)) (ix2 (0 : Fin 2) e)).toInt < 100000) :
    Cert.ReferenceIdeal.Value.res_main_v54 (F := Ideal) m c
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Cert.ReferenceIdeal.Read.val_main_v54_eq (F := Ideal) m c).trans (result_eq _ _ _ _ _ _ _ _ _ _ hsrc)

end Cert.ReferenceIdeal.RefValue

end
-- ==== Proof.K.Own.lean ====
import proofs.«407445_j30339648979088_1_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → ℕ) = fun _ => 0 := by
  funext a; fin_cases a <;> rfl

theorem readAt_unit0 {sp : Space} {S : Shape} {e : EltTy} (m : Memref sig .tc sp S e) (hm : m.IsWhole)
    {off : Fin S.rank → ℕ} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h inb]

theorem read_writes_unit0 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

-- reading through a whole memref is a bijection, so its contents are named by what it reads
theorem owns_unread {c : Thread nD τ} {sp : Space} {S : Shape} {e : EltTy} {m : Memref sig c.2.kind sp S e} (hm : m.IsWhole)
    (x : S.Idx → Elt F e) {q : PosShare TreeShare} :
    (owns c m q x : sProp 𝕄) = (m.view.loc c ↦[m.view.set]{q} hm.unread x) := by
  unfold owns
  refine BI.Entails.antisymm ?_ ?_ <;> show (_ : sProp 𝕄) ⊢ _
  · iintro ⟨%g, %hg, H⟩; obtain rfl := hm.eq_unread hg; iexact H
  · iintro H; iexists _; isplitr; · ipureintro; exact hm.read_unread x
    iexact H

end Cert.Kernel.Hand

end
-- ==== Proof.K.B0.lean ====
import proofs.«407445_j30339648979088_1_alg».proof.Proof.K.Own
import proofs.«407445_j30339648979088_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem cond0_0_word : ∀ v : Fin 40,
    (Scalar.cmpi .ne (Scalar.extui (Scalar.cmpi .eq (BitVec.ofNat 32 v.val) 0#32)) 0#32) = 1#1 ↔ v.val = 0 := by
  decide +kernel
theorem cond0_1_word : ∀ v : Fin 40,
    (Scalar.cmpi .ne (Scalar.extui (Scalar.cmpi .eq (BitVec.ofNat 32 v.val) 39#32)) 0#32) = 1#1 ↔ v.val = 39 := by
  decide +kernel

set_option maxHeartbeats 1000000 in
theorem run0_AB (c : Dev nD) (i : grid0.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x128 .bf16) (harg5 : arg5.IsWhole)
    (arg6 : Memref sig .tc .vmem S2560x128 .f32) (harg6 : arg6.IsWhole)
    (hc1 : ¬cond0_1 i)
    (x0 : Vec F S2560x1 .i32) (x1 : Vec F S1x2560 .i32) (x2 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg6 fullShare xs
        ∗ (iprop(owns c arg2 fullShare x0 ∗ owns c arg3 fullShare x1 ∗ owns c arg4 fullShare x2
            ∗ owns c arg6 fullShare (k0_pay2 x0 x1 (if cond0_0 i then k0_pay1 else xs) x2)) -∗ K ⟨⟩))
      ⊢ wp frame (wpE (defs₀ (F := F)) Variants.none c none) E (cc0__gather_kernel i arg2 harg2 arg3 harg3 arg4 harg4 arg5 harg5 arg6 harg6) K := by
  rw [owns_unread harg2 x0, owns_unread harg3 x1, owns_unread harg4 x2, owns_unread harg6 xs]
  simp only [cc0__gather_kernel_eq_skeleton]; unfold cc0__gather_kernel_skel
  iintro ⟨H0, H1, H2, HS, Hk⟩
  by_cases hc0 : cond0_0 i
  all_goals
    first | rw [if_pos hc0] | rw [if_neg hc0]
    sl_exec (disch := first | exact hc0 | exact hc1)
    sl_step
    iapply Hk
    iframe H0 H1 H2
    unfold owns; iexists _; isplitr
    swap; · iexact HS
    ipureintro
  · sl_unfold_words
    rw [read_writes_unit0 _ _ off2_zero, View.readCov_unit_zero (S := S2560x128) _ off2_zero, readAt_unit0 arg2 harg2 off2_zero,
      readAt_unit0 arg3 harg3 off2_zero, readAt_unit0 arg4 harg4 off2_zero]
  · rw [read_writes_unit0 _ _ off2_zero, readAt_unit0 arg2 harg2 off2_zero, readAt_unit0 arg3 harg3 off2_zero,
      readAt_unit0 arg4 harg4 off2_zero, readAt_unit0 arg6 harg6 off2_zero]

set_option maxHeartbeats 1000000 in
theorem run0_C (c : Dev nD) (i : grid0.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x128 .bf16) (harg5 : arg5.IsWhole)
    (arg6 : Memref sig .tc .vmem S2560x128 .f32) (harg6 : arg6.IsWhole)
    (hc0 : ¬cond0_0 i) (hc1 : cond0_1 i)
    (x0 : Vec F S2560x1 .i32) (x1 : Vec F S1x2560 .i32) (x2 : Vec F S2560x128 .bf16) (x3 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg5 fullShare x3 ∗ owns c arg6 fullShare xs
        ∗ (iprop(owns c arg2 fullShare x0 ∗ owns c arg3 fullShare x1 ∗ owns c arg4 fullShare x2
            ∗ owns c arg5 fullShare (k0_pay3 (k0_pay2 x0 x1 xs x2)) ∗ owns c arg6 fullShare (k0_pay2 x0 x1 xs x2)) -∗ K ⟨⟩))
      ⊢ wp frame (wpE (defs₀ (F := F)) Variants.none c none) E (cc0__gather_kernel i arg2 harg2 arg3 harg3 arg4 harg4 arg5 harg5 arg6 harg6) K := by
  rw [owns_unread harg2 x0, owns_unread harg3 x1, owns_unread harg4 x2, owns_unread harg5 x3, owns_unread harg6 xs]
  simp only [cc0__gather_kernel_eq_skeleton]; unfold cc0__gather_kernel_skel
  iintro ⟨H0, H1, H2, H3, HS, Hk⟩
  sl_exec (disch := first | exact hc0 | exact hc1)
  sl_step
  iapply Hk
  iframe H0 H1 H2
  unfold owns
  isplitl [H3]
  · iexists _; isplitr
    swap; · iexact H3
    ipureintro
    sl_unfold_words
    rw [read_writes_unit0 _ _ off2_zero, View.readCov_unit_zero (S := S2560x128) _ off2_zero, readAt_unit0 arg2 harg2 off2_zero,
      readAt_unit0 arg3 harg3 off2_zero, readAt_unit0 arg6 harg6 off2_zero, readAt_unit0 arg4 harg4 off2_zero]
  iexists _; isplitr
  swap; · iexact HS
  ipureintro
  sl_unfold_words
  rw [read_writes_unit0 _ _ off2_zero, readAt_unit0 arg2 harg2 off2_zero, readAt_unit0 arg3 harg3 off2_zero,
    readAt_unit0 arg4 harg4 off2_zero, readAt_unit0 arg6 harg6 off2_zero]

end Cert.Kernel.Hand

end
-- ==== Proof.K.Sched.lean ====
import proofs.«407445_j30339648979088_1_alg».proof.Proof.Gen.Kernel.Launch
import Idealize.ShloMosaic.Lib.Pipeline.Kit

noncomputable section

namespace Cert.Kernel.Hand

open Cert.Kernel Cert.Kernel.Gen
open Idealize.ShloMosaic Idealize.ShloMosaic.TcCoe
open Idealize.SL Idealize.SL.Sem

variable {F : FTy → Type} [FloatOps F]

-- a number below 2³² is the value of its word
theorem index_outer (n : Nat) (h : n < 2 ^ 32) :
    (![(BitVec.ofNat 32 n).toNat, (0#32 : BitVec 32).toNat] : Fin 2 → Nat) = ![n, 0] := by
  rw [BitVec.toNat_ofNat, Nat.mod_eq_of_lt h]; rfl

theorem pair_fst (a a' : Nat) : (![a, 0] : Fin 2 → Nat) = ![a', 0] ↔ a = a' :=
  ⟨fun h => congrFun h 0, fun h => by rw [h]⟩

theorem flush_of_key {G : Pipeline.Grid} (w : Pipeline.Window sig G) (hout : w.isOut = true) (key : Nat → Nat)
    (hkey : ∀ t t' : Fin G.N, w.index t = w.index t' ↔ key t.val = key t'.val) (N : Nat) (hN : G.N = N) (t : Fin G.N) :
    w.flush t = true ↔ t.val + 1 = N ∨ (t.val + 1 < N ∧ key (t.val + 1) ≠ key t.val) := by
  rw [w.flush_out hout t, ← hN]
  constructor
  · rintro (h | ⟨h, hne⟩)
    · exact .inl h
    · exact .inr ⟨h, fun e => hne ((hkey ⟨t.val + 1, h⟩ t).2 e)⟩
  · rintro (h | ⟨h, hne⟩)
    · exact .inl h
    · exact .inr ⟨h, fun e => hne ((hkey ⟨t.val + 1, h⟩ t).1 e)⟩

theorem coordA0 (t : Fin cfg0.N) : (grid0.coords t 0).val = t.val / 40 := by
  have hN : t.val < 25000 := lt_of_lt_of_eq t.isLt (show cfg0.N = 25000 from N_0)
  show t.val / grid0.stride 0 % grid0.bound 0 = _
  rw [show grid0.stride 0 = 40 from by decide]
  show t.val / 40 % 625 = _
  omega

theorem index0_3 (t : Fin cfg0.N) : (cfg0.win 3).index t = ![t.val / 40, 0] := by
  have hN : t.val < 25000 := lt_of_lt_of_eq t.isLt (show cfg0.N = 25000 from N_0)
  show (![(BitVec.ofNat 32 (grid0.coords t 0).val).toNat, (0#32 : BitVec 32).toNat] : Fin 2 → Nat) = _
  rw [coordA0 t]; exact index_outer _ (by omega)

theorem flush0_3 : ∀ t : Fin cfg0.N, (cfg0.win 3).flush t = true ↔ t.val % 40 = 39 := fun t => by
  have hN : t.val < 25000 := lt_of_lt_of_eq t.isLt (show cfg0.N = 25000 from N_0)
  refine (flush_of_key (cfg0.win 3) rfl (fun n => n / 40) (fun t t' => by rw [index0_3, index0_3]; exact pair_fst _ _) 25000 N_0 t).trans ?_
  show t.val + 1 = 25000 ∨ (t.val + 1 < 25000 ∧ (t.val + 1) / 40 ≠ t.val / 40) ↔ _
  omega

abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

theorem coord1_0 (t : Fin cfg1.N) : (grid1.coords t 0).val = t.val / 625 := by
  have hN : t.val < 25000 := lt_of_lt_of_eq t.isLt (show cfg1.N = 25000 from N_1)
  show t.val / grid1.stride 0 % grid1.bound 0 = _
  rw [show grid1.stride 0 = 625 from by decide]
  show t.val / 625 % 40 = _
  omega

theorem index1_8 (t : Fin cfg1.N) : (cfg1.win 8).index t = ![t.val / 625, 0] := by
  have hN : t.val < 25000 := lt_of_lt_of_eq t.isLt (show cfg1.N = 25000 from N_1)
  show (![(BitVec.ofNat 32 (grid1.coords t 0).val).toNat, (0#32 : BitVec 32).toNat] : Fin 2 → Nat) = _
  rw [coord1_0 t]; exact index_outer _ (by omega)

theorem flush1_8 : ∀ t : Fin cfg1.N, (cfg1.win 8).flush t = true ↔ t.val % 625 = 624 := fun t => by
  have hN : t.val < 25000 := lt_of_lt_of_eq t.isLt (show cfg1.N = 25000 from N_1)
  refine (flush_of_key (cfg1.win 8) rfl (fun n => n / 625) (fun t t' => by rw [index1_8, index1_8]; exact pair_fst _ _) 25000 N_1 t).trans ?_
  show t.val + 1 = 25000 ∨ (t.val + 1 < 25000 ∧ (t.val + 1) / 625 ≠ t.val / 625) ↔ _
  omega

abbrev bodyAt1 (t : Fin cfg1.N) : Prog (TpuEff nD τ sig (Elt F) Λ₀ .tc) PUnit :=
  cc1__scatter_combine_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (Memref.whole cc1_scratch0) (Memref.isWhole_whole _)

theorem coord4_0 (t : Fin cfg4.N) : (grid4.coords t 0).val = t.val := by
  have hN : t.val < 40 := lt_of_lt_of_eq t.isLt (show cfg4.N = 40 from N_4)
  show t.val / grid4.stride 0 % grid4.bound 0 = _
  rw [show grid4.stride 0 = 1 from by decide, Nat.div_one]
  show t.val % 40 = _
  omega

theorem index4_3 (t : Fin cfg4.N) : (cfg4.win 3).index t = ![t.val, 0] := by
  have hN : t.val < 40 := lt_of_lt_of_eq t.isLt (show cfg4.N = 40 from N_4)
  show (![(BitVec.ofNat 32 (grid4.coords t 0).val).toNat, (0#32 : BitVec 32).toNat] : Fin 2 → Nat) = _
  rw [coord4_0 t]; exact index_outer _ (by omega)

theorem flush4_3 : ∀ t : Fin cfg4.N, (cfg4.win 3).flush t = true := fun t => by
  have hN : t.val < 40 := lt_of_lt_of_eq t.isLt (show cfg4.N = 40 from N_4)
  refine (flush_of_key (cfg4.win 3) rfl (fun n => n) (fun t t' => by rw [index4_3, index4_3]; exact pair_fst _ _) 40 N_4 t).2 ?_
  show t.val + 1 = 40 ∨ (t.val + 1 < 40 ∧ t.val + 1 ≠ t.val)
  omega

abbrev bodyAt4 (t : Fin cfg4.N) : Prog (TpuEff nD τ sig (Elt F) Λ₀ .tc) PUnit :=
  cc4__linear_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3))

-- regions 2 and 3 have the grids and index maps of regions 0 and 1
theorem coordA2 (t : Fin cfg2.N) : (grid2.coords t 0).val = t.val / 40 := coordA0 t
theorem flush2_3 : ∀ t : Fin cfg2.N, (cfg2.win 3).flush t = true ↔ t.val % 40 = 39 := flush0_3
theorem coord3_0 (t : Fin cfg3.N) : (grid3.coords t 0).val = t.val / 625 := coord1_0 t
theorem flush3_8 : ∀ t : Fin cfg3.N, (cfg3.win 8).flush t = true ↔ t.val % 625 = 624 := flush1_8

abbrev bodyAt2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev bodyAt3 (t : Fin cfg3.N) : Prog (TpuEff nD τ sig (Elt F) Λ₀ .tc) PUnit :=
  cc3__scatter_combine_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (Memref.whole cc3_scratch0) (Memref.isWhole_whole _)

end Cert.Kernel.Hand

end
-- ==== Proof.K.R0.lean ====
import proofs.«407445_j30339648979088_1_alg».proof.Proof.K.B0
import proofs.«407445_j30339648979088_1_alg».proof.Proof.K.Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coordB0 (t : Fin cfg0.N) : (grid0.coords t 1).val = t.val % 40 := by
  show t.val / grid0.stride 1 % grid0.bound 1 = _
  rw [show grid0.stride 1 = 1 from by decide, Nat.div_one]; rfl

theorem hcond0_0 (t : Fin cfg0.N) : cond0_0 (grid0.coords t) ↔ t.val % 40 = 0 := by
  rw [← coordB0 t]
  exact cond0_0_word ((grid0.coords t) 1)
theorem hcond0_1 (t : Fin cfg0.N) : cond0_1 (grid0.coords t) ↔ t.val % 40 = 39 := by
  rw [← coordB0 t]
  exact cond0_1_word ((grid0.coords t) 1)

theorem idle0_3_eq (i : grid0.Coords) : cfg0.idle 3 i = !(k0_cond2 i == 1#1) := rfl
theorem idleAt0_3 (i : grid0.Coords) (h : ¬cond0_1 i) : cfg0.idle 3 i = true := by
  rw [idle0_3_eq, beq_eq_false_iff_ne.mpr h]; rfl
theorem liveAt0_3 (i : grid0.Coords) (h : cond0_1 i) : cfg0.idle 3 i = false := by
  rw [idle0_3_eq, beq_iff_eq.mpr h]; rfl

theorem noFlush0_3 (t : Fin cfg0.N) (h : ¬t.val % 40 = 39) : (cfg0.win 3).flush t = false :=
  Bool.eq_false_iff.mpr fun hf => h ((flush0_3 t).mp hf)

abbrev scM0 : Memref sig .tc .vmem S2560x128 .f32 := Memref.whole cc0_scratch0

def acc0 (c : Dev nD) : (n : ℕ) → n < cfg0.N → FVec F S2560x128 .f32
  | 0, hn => k0_pay2 (iblk0 V c 0 ⟨0, hn⟩) (iblk0 V c 1 ⟨0, hn⟩) k0_pay1 (iblk0 V c 2 ⟨0, hn⟩)
  | n + 1, hn =>
    if (n + 1) % 40 = 0 then k0_pay2 (iblk0 V c 0 ⟨n + 1, hn⟩) (iblk0 V c 1 ⟨n + 1, hn⟩) k0_pay1 (iblk0 V c 2 ⟨n + 1, hn⟩)
    else k0_pay2 (iblk0 V c 0 ⟨n + 1, hn⟩) (iblk0 V c 1 ⟨n + 1, hn⟩) (acc0 c n (Nat.lt_of_succ_lt hn)) (iblk0 V c 2 ⟨n + 1, hn⟩)

theorem acc0_first (c : Dev nD) (t : Fin cfg0.N) (h : t.val % 40 = 0) :
    acc0 V c t.val t.isLt = k0_pay2 (iblk0 V c 0 t) (iblk0 V c 1 t) k0_pay1 (iblk0 V c 2 t) := by
  obtain ⟨n, hn⟩ := t
  cases n with
  | zero => rfl
  | succ n => exact (if_pos h).trans rfl

theorem acc0_next (c : Dev nD) (t : Fin cfg0.N) (h : ¬ t.val % 40 = 0) :
    acc0 V c t.val t.isLt = k0_pay2 (iblk0 V c 0 t) (iblk0 V c 1 t) (acc0 V c (t.val - 1) (by omega)) (iblk0 V c 2 t) := by
  obtain ⟨n, hn⟩ := t
  cases n with
  | zero => exact absurd (Nat.zero_mod _) h
  | succ n => exact (if_neg h).trans rfl

def inv0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

theorem PhiA0_eq (c : Dev nD) : (Pipeline.ΦA spec0 c : sProp 𝕄) = inv0 c iprop(∃ d, owns c scM0 fullShare d) := by
  unfold Pipeline.ΦA inv0; rw [scopedRest0_split]; simp only [scM0, owns_whole]; rfl

def Phi0 (c : Dev nD) : (n : ℕ) → n ≤ cfg0.N → sProp 𝕄
  | 0, _ => Pipeline.ΦA spec0 c
  | n + 1, hn => inv0 c (owns c scM0 fullShare (acc0 V c n hn))

theorem Phi0_pos (c : Dev nD) (n : ℕ) (h : n ≤ cfg0.N) (hz : n ≠ 0) :
    Phi0 V c n h = inv0 c (owns c scM0 fullShare (acc0 V c (n - 1) (by omega))) := by
  cases n with
  | zero => exact absurd rfl hz
  | succ n => rfl

theorem Phi0_le (c : Dev nD) (n : ℕ) (h : n ≤ cfg0.N) : Phi0 V c n h ⊢ Pipeline.ΦA spec0 c := by
  cases n with
  | zero => exact .rfl
  | succ n =>
    rw [PhiA0_eq]; show inv0 c _ ⊢ _; unfold inv0
    iintro ⟨⟨HS, HR⟩, Hg⟩
    iframe HR Hg
    iexists _; iexact HS

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val t.isLt) := by dsimp only [dat0]

theorem hin0 (c : Dev nD) : Pipeline.ΦA spec0 c ⊢ (dat0 V c).Φ 0 := .rfl

theorem hout0 (c : Dev nD) : (dat0 V c).Φ (Fin.last cfg0.N) ⊢ Pipeline.ΦA spec0 c := Phi0_le V c cfg0.N le_rfl

theorem before0 (c : Dev nD) (t : Fin cfg0.N) : ∀ w : Fin 4, w ≠ 3 → ∀ d, (dat0 V c).before w t d = (dat0 V c).after w t := by
  intro w; fin_cases w <;> first
    | exact fun h => absurd rfl h
    | exact fun _ d => (dat0 V c).before_in_eq_fetched _ rfl (fun _ => rfl) (fun _ _ _ => rfl) (fun _ => rfl) t d

abbrev ms0 (t : Fin cfg0.N) (w : Fin cfg0.W) := (cfg0.win w).stage (cfg0.slots t w)
theorem hs0 (t : Fin cfg0.N) (w : Fin cfg0.W) : (ms0 t w).IsWhole := stage_whole0 w _

abbrev pre0 (c : Dev nD) (t : Fin cfg0.N) (w : Fin cfg0.W) : sProp 𝕄 := iprop(∃ d, owns c (ms0 t w) fullShare ((dat0 V c).before w t d))
abbrev post0 (c : Dev nD) (t : Fin cfg0.N) (w : Fin cfg0.W) : sProp 𝕄 := owns c (ms0 t w) fullShare ((dat0 V c).after w t)

def bodyPre0 (c : Dev nD) (t : Fin cfg0.N) : sProp 𝕄 :=
  iprop((dat0 V c).Φ t.castSucc ∗ (dat0 V c).owesAt () t.castSucc ∗ pre0 V c t 0 ∗ pre0 V c t 1 ∗ pre0 V c t 2 ∗ pre0 V c t 3)

def bodyPost0 (c : Dev nD) (t : Fin cfg0.N) : sProp 𝕄 :=
  iprop(inv0 c (owns c scM0 fullShare (acc0 V c t.val t.isLt)) ∗ (dat0 V c).owesAt () t.castSucc ∗ post0 V c t 0 ∗ post0 V c t 1
    ∗ post0 V c t 2 ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  have hb := before0 V c t
  unfold bodyPre0 bodyPost0 bodyAt0 pre0 post0
  simp only [hb 0 (by decide), hb 1 (by decide), hb 2 (by decide)]
  by_cases h0 : t.val % 40 = 0
  · have h1 : ¬t.val % 40 = 39 := by omega
    have hc1 : ¬cond0_1 (grid0.coords t) := fun h => h1 ((hcond0_1 t).mp h)
    rw [Dat.leavesExact_idle (dat0 V c) 3 t (idleAt0_3 _ hc1) (noFlush0_3 t h1), acc0_first V c t h0]
    refine (sep_mono_left (Phi0_le V c _ _)).trans ?_
    rw [PhiA0_eq]; unfold inv0
    iintro ⟨⟨⟨⟨%d, HS⟩, HR⟩, Hg⟩, Ho, ⟨%d0, H0⟩, ⟨%d1, H1⟩, ⟨%d2, H2⟩, H3⟩
    iapply run0_AB c (grid0.coords t) _ (hs0 t 0) _ (hs0 t 1) _ (hs0 t 2) _ (hs0 t 3) scM0 (Memref.isWhole_whole _) hc1
      ((dat0 V c).after 0 t) ((dat0 V c).after 1 t) ((dat0 V c).after 2 t) d Set.univ _
    rw [if_pos ((hcond0_0 t).mpr h0)]
    iframe H0 H1 H2 HS
    iintro ⟨H0, H1, H2, HS⟩
    iframe
    iexact HS
  · have hc0 : ¬cond0_0 (grid0.coords t) := fun h => h0 ((hcond0_0 t).mp h)
    rw [show (dat0 V c).Φ t.castSucc = Phi0 V c t.val (Nat.le_of_lt t.isLt) from rfl,
      Phi0_pos V c _ _ fun e => h0 (by rw [e]), acc0_next V c t h0]
    unfold inv0
    by_cases h1 : t.val % 40 = 39
    · have hc1 : cond0_1 (grid0.coords t) := (hcond0_1 t).mpr h1
      rw [show (dat0 V c).leavesExact 3 t = owns c (ms0 t 3) fullShare ((dat0 V c).after 3 t) from by
        unfold Dat.leavesExact; rw [liveAt0_3 _ hc1], after0_3, acc0_next V c t h0]
      iintro ⟨⟨⟨HS, HR⟩, Hg⟩, Ho, ⟨%d0, H0⟩, ⟨%d1, H1⟩, ⟨%d2, H2⟩, ⟨%d3, H3⟩⟩
      iapply run0_C c (grid0.coords t) _ (hs0 t 0) _ (hs0 t 1) _ (hs0 t 2) _ (hs0 t 3) scM0 (Memref.isWhole_whole _) hc0 hc1
        ((dat0 V c).after 0 t) ((dat0 V c).after 1 t) ((dat0 V c).after 2 t) ((dat0 V c).before 3 t d3)
        (acc0 V c (t.val - 1) (by omega)) Set.univ _
      iframe H0 H1 H2 H3 HS
      iintro ⟨H0, H1, H2, H3, HS⟩
      iframe
      isplitl [HS]; · iexact HS
      iexact H3
    · have hc1 : ¬cond0_1 (grid0.coords t) := fun h => h1 ((hcond0_1 t).mp h)
      rw [Dat.leavesExact_idle (dat0 V c) 3 t (idleAt0_3 _ hc1) (noFlush0_3 t h1)]
      iintro ⟨⟨⟨HS, HR⟩, Hg⟩, Ho, ⟨%d0, H0⟩, ⟨%d1, H1⟩, ⟨%d2, H2⟩, H3⟩
      iapply run0_AB c (grid0.coords t) _ (hs0 t 0) _ (hs0 t 1) _ (hs0 t 2) _ (hs0 t 3) scM0 (Memref.isWhole_whole _) hc1
        ((dat0 V c).after 0 t) ((dat0 V c).after 1 t) ((dat0 V c).after 2 t) (acc0 V c (t.val - 1) (by omega)) Set.univ _
      rw [if_neg hc0]
      iframe H0 H1 H2 HS
      iintro ⟨H0, H1, H2, HS⟩
      iframe
      iexact HS

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.B1.lean ====
import proofs.«407445_j30339648979088_1_alg».proof.Proof.K.Own
import proofs.«407445_j30339648979088_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem cond1_0_word : ∀ v : Fin 625,
    (Scalar.cmpi .ne (Scalar.extui (Scalar.cmpi .eq (BitVec.ofNat 32 v.val) 0#32)) 0#32) = 1#1 ↔ v.val = 0 := by
  decide +kernel
theorem cond1_1_word : ∀ v : Fin 625,
    (Scalar.cmpi .ne (Scalar.extui (Scalar.cmpi .eq (BitVec.ofNat 32 v.val) 624#32)) 0#32) = 1#1 ↔ v.val = 624 := by
  decide +kernel

set_option maxHeartbeats 1000000 in
theorem run1_AB (c : Dev nD) (i : grid1.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x1 .f32) (harg5 : arg5.IsWhole)
    (arg6 : Memref sig .tc .vmem S2560x128 .bf16) (harg6 : arg6.IsWhole) (arg7 : Memref sig .tc .vmem S128x128 .bf16) (harg7 : arg7.IsWhole)
    (arg8 : Memref sig .tc .vmem S128x128 .bf16) (harg8 : arg8.IsWhole) (arg9 : Memref sig .tc .vmem S1x128 .f32) (harg9 : arg9.IsWhole)
    (arg10 : Memref sig .tc .vmem S2560x128 .bf16) (harg10 : arg10.IsWhole) (arg11 : Memref sig .tc .vmem S2560x128 .f32) (harg11 : arg11.IsWhole)
    (hc1 : ¬cond1_1 i)
    (x0 : Vec F S2560x1 .i32) (x1 : Vec F S1x2560 .i32) (x2 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg11 fullShare xs
        ∗ (iprop(owns c arg2 fullShare x0 ∗ owns c arg3 fullShare x1 ∗ owns c arg4 fullShare x2
            ∗ owns c arg11 fullShare (k1_pay2 x0 x1 (if cond1_0 i then k1_pay1 else xs) x2)) -∗ K ⟨⟩))
      ⊢ wp frame (wpE (defs₀ (F := F)) Variants.none c none) E
          (cc1__scatter_combine_kernel i arg2 harg2 arg3 harg3 arg4 harg4 arg5 harg5 arg6 harg6 arg7 harg7 arg8 harg8 arg9 harg9 arg10 harg10 arg11 harg11) K := by
  rw [owns_unread harg2 x0, owns_unread harg3 x1, owns_unread harg4 x2, owns_unread harg11 xs]
  simp only [cc1__scatter_combine_kernel_eq_skeleton]; unfold cc1__scatter_combine_kernel_skel
  iintro ⟨H0, H1, H2, HS, Hk⟩
  by_cases hc0 : cond1_0 i
  all_goals
    first | rw [if_pos hc0] | rw [if_neg hc0]
    sl_exec (disch := first | exact hc0 | exact hc1)
    sl_step
    iapply Hk
    iframe H0 H1 H2
    unfold owns; iexists _; isplitr
    swap; · iexact HS
    ipureintro
  · sl_unfold_words
    rw [read_writes_unit0 _ _ off2_zero, View.readCov_unit_zero (S := S2560x128) _ off2_zero, readAt_unit0 arg2 harg2 off2_zero,
      readAt_unit0 arg3 harg3 off2_zero, readAt_unit0 arg4 harg4 off2_zero]
  · rw [read_writes_unit0 _ _ off2_zero, readAt_unit0 arg2 harg2 off2_zero, readAt_unit0 arg3 harg3 off2_zero,
      readAt_unit0 arg4 harg4 off2_zero, readAt_unit0 arg11 harg11 off2_zero]

set_option maxHeartbeats 4000000 in
theorem run1_C (c : Dev nD) (i : grid1.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x1 .f32) (harg5 : arg5.IsWhole)
    (arg6 : Memref sig .tc .vmem S2560x128 .bf16) (harg6 : arg6.IsWhole) (arg7 : Memref sig .tc .vmem S128x128 .bf16) (harg7 : arg7.IsWhole)
    (arg8 : Memref sig .tc .vmem S128x128 .bf16) (harg8 : arg8.IsWhole) (arg9 : Memref sig .tc .vmem S1x128 .f32) (harg9 : arg9.IsWhole)
    (arg10 : Memref sig .tc .vmem S2560x128 .bf16) (harg10 : arg10.IsWhole) (arg11 : Memref sig .tc .vmem S2560x128 .f32) (harg11 : arg11.IsWhole)
    (hc0 : ¬cond1_0 i) (hc1 : cond1_1 i)
    (x0 : Vec F S2560x1 .i32) (x1 : Vec F S1x2560 .i32) (x2 : Vec F S2560x128 .bf16) (x3 : Vec F S2560x1 .f32)
    (x4 : Vec F S2560x128 .bf16) (x5 : Vec F S128x128 .bf16) (x6 : Vec F S128x128 .bf16) (x7 : Vec F S1x128 .f32)
    (x8 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg5 fullShare x3
        ∗ owns c arg6 fullShare x4 ∗ owns c arg7 fullShare x5 ∗ owns c arg8 fullShare x6 ∗ owns c arg9 fullShare x7
        ∗ owns c arg10 fullShare x8 ∗ owns c arg11 fullShare xs
        ∗ (iprop(owns c arg2 fullShare x0 ∗ owns c arg3 fullShare x1 ∗ owns c arg4 fullShare x2 ∗ owns c arg5 fullShare x3
            ∗ owns c arg6 fullShare x4 ∗ owns c arg7 fullShare x5 ∗ owns c arg8 fullShare x6 ∗ owns c arg9 fullShare x7
            ∗ owns c arg10 fullShare (k1_pay3 (k1_pay2 x0 x1 xs x2) x3 x5 x4 x6 x7)
            ∗ owns c arg11 fullShare (k1_pay2 x0 x1 xs x2)) -∗ K ⟨⟩))
      ⊢ wp frame (wpE (defs₀ (F := F)) Variants.none c none) E
          (cc1__scatter_combine_kernel i arg2 harg2 arg3 harg3 arg4 harg4 arg5 harg5 arg6 harg6 arg7 harg7 arg8 harg8 arg9 harg9 arg10 harg10 arg11 harg11) K := by
  rw [owns_unread harg2 x0, owns_unread harg3 x1, owns_unread harg4 x2, owns_unread harg5 x3, owns_unread harg6 x4,
    owns_unread harg7 x5, owns_unread harg8 x6, owns_unread harg9 x7, owns_unread harg10 x8, owns_unread harg11 xs]
  simp only [cc1__scatter_combine_kernel_eq_skeleton]; unfold cc1__scatter_combine_kernel_skel
  iintro ⟨H0, H1, H2, H3, H4, H5, H6, H7, H8, HS, Hk⟩
  sl_exec (disch := first | exact hc0 | exact hc1)
  sl_step
  iapply Hk
  iframe H0 H1 H2 H3 H4 H5 H6 H7
  unfold owns
  isplitl [H8]
  · iexists _; isplitr
    swap; · iexact H8
    ipureintro
    sl_unfold_words
    rw [read_writes_unit0 _ _ off2_zero, View.readCov_unit_zero (S := S2560x128) _ off2_zero, readAt_unit0 arg2 harg2 off2_zero,
      readAt_unit0 arg3 harg3 off2_zero, readAt_unit0 arg11 harg11 off2_zero, readAt_unit0 arg4 harg4 off2_zero,
      readAt_unit0 arg5 harg5 off2_zero, readAt_unit0 arg7 harg7 off2_zero, readAt_unit0 arg6 harg6 off2_zero,
      readAt_unit0 arg8 harg8 off2_zero, readAt_unit0 arg9 harg9 off2_zero]
  iexists _; isplitr
  swap; · iexact HS
  ipureintro
  sl_unfold_words
  rw [read_writes_unit0 _ _ off2_zero, readAt_unit0 arg2 harg2 off2_zero, readAt_unit0 arg3 harg3 off2_zero,
    readAt_unit0 arg4 harg4 off2_zero, readAt_unit0 arg11 harg11 off2_zero]

end Cert.Kernel.Hand

end
-- ==== Proof.K.R1.lean ====
import proofs.«407445_j30339648979088_1_alg».proof.Proof.K.B1
import proofs.«407445_j30339648979088_1_alg».proof.Proof.K.Sched
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem coords1_1 (t : Fin cfg1.N) : ((grid1.coords t) 1).val = t.val % 625 := by
  show t.val / grid1.stride 1 % grid1.bound 1 = t.val % 625
  rw [show grid1.stride 1 = 1 from by decide, Nat.div_one]; rfl

theorem hcond1_0 (t : Fin cfg1.N) : cond1_0 (grid1.coords t) ↔ t.val % 625 = 0 := by
  rw [← coords1_1 t]
  exact cond1_0_word ((grid1.coords t) 1)
theorem hcond1_1 (t : Fin cfg1.N) : cond1_1 (grid1.coords t) ↔ t.val % 625 = 624 := by
  rw [← coords1_1 t]
  exact cond1_1_word ((grid1.coords t) 1)

theorem idle1_8_eq (i : grid1.Coords) : cfg1.idle 8 i = !(k1_cond2 i == 1#1) := rfl
theorem idleAt1_8 (i : grid1.Coords) (h : ¬cond1_1 i) : cfg1.idle 8 i = true := by
  rw [idle1_8_eq, beq_eq_false_iff_ne.mpr h]; rfl
theorem liveAt1_8 (i : grid1.Coords) (h : cond1_1 i) : cfg1.idle 8 i = false := by
  rw [idle1_8_eq, beq_iff_eq.mpr h]; rfl

theorem noFlush1_8 (t : Fin cfg1.N) (h : ¬t.val % 625 = 624) : (cfg1.win 8).flush t = false :=
  Bool.eq_false_iff.mpr fun hf => h ((flush1_8 t).mp hf)

abbrev scM1 : Memref sig .tc .vmem S2560x128 .f32 := Memref.whole cc1_scratch0

def acc1 (c : Dev nD) : (n : ℕ) → n < cfg1.N → FVec F S2560x128 .f32
  | 0, hn => k1_pay2 (iblk1 V c 0 ⟨0, hn⟩) (iblk1 V c 1 ⟨0, hn⟩) k1_pay1 (iblk1 V c 2 ⟨0, hn⟩)
  | n + 1, hn =>
    if (n + 1) % 625 = 0 then k1_pay2 (iblk1 V c 0 ⟨n + 1, hn⟩) (iblk1 V c 1 ⟨n + 1, hn⟩) k1_pay1 (iblk1 V c 2 ⟨n + 1, hn⟩)
    else k1_pay2 (iblk1 V c 0 ⟨n + 1, hn⟩) (iblk1 V c 1 ⟨n + 1, hn⟩) (acc1 c n (Nat.lt_of_succ_lt hn)) (iblk1 V c 2 ⟨n + 1, hn⟩)

theorem acc1_first (c : Dev nD) (t : Fin cfg1.N) (h : t.val % 625 = 0) :
    acc1 V c t.val t.isLt = k1_pay2 (iblk1 V c 0 t) (iblk1 V c 1 t) k1_pay1 (iblk1 V c 2 t) := by
  obtain ⟨n, hn⟩ := t
  cases n with
  | zero => rfl
  | succ n => exact (if_pos h).trans rfl

theorem acc1_next (c : Dev nD) (t : Fin cfg1.N) (h : ¬ t.val % 625 = 0) :
    acc1 V c t.val t.isLt = k1_pay2 (iblk1 V c 0 t) (iblk1 V c 1 t) (acc1 V c (t.val - 1) (by omega)) (iblk1 V c 2 t) := by
  obtain ⟨n, hn⟩ := t
  cases n with
  | zero => exact absurd (Nat.zero_mod _) h
  | succ n => exact (if_neg h).trans rfl

def inv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = inv1 c iprop(∃ d, owns c scM1 fullShare d) := by
  unfold Pipeline.ΦA inv1; rw [scopedRest1_split]; simp only [scM1, owns_whole]; rfl

def Phi1 (c : Dev nD) : (n : ℕ) → n ≤ cfg1.N → sProp 𝕄
  | 0, _ => Pipeline.ΦA spec1 c
  | n + 1, hn => inv1 c (owns c scM1 fullShare (acc1 V c n hn))

theorem Phi1_pos (c : Dev nD) (n : ℕ) (h : n ≤ cfg1.N) (hz : n ≠ 0) :
    Phi1 V c n h = inv1 c (owns c scM1 fullShare (acc1 V c (n - 1) (by omega))) := by
  cases n with
  | zero => exact absurd rfl hz
  | succ n => rfl

theorem Phi1_le (c : Dev nD) (n : ℕ) (h : n ≤ cfg1.N) : Phi1 V c n h ⊢ Pipeline.ΦA spec1 c := by
  cases n with
  | zero => exact .rfl
  | succ n =>
    rw [PhiA1_eq]; show inv1 c _ ⊢ _; unfold inv1
    iintro ⟨⟨HS, HR⟩, Hg⟩
    iframe HR Hg
    iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay3 (acc1 V c t.val t.isLt) (iblk1 V c 3 t) (iblk1 V c 5 t) (iblk1 V c 4 t) (iblk1 V c 6 t) (iblk1 V c 7 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) :
    (dat1 V c).after 8 t = k1_pay3 (acc1 V c t.val t.isLt) (iblk1 V c 3 t) (iblk1 V c 5 t) (iblk1 V c 4 t) (iblk1 V c 6 t) (iblk1 V c 7 t) := by
  dsimp only [dat1]

theorem hin1 (c : Dev nD) : Pipeline.ΦA spec1 c ⊢ (dat1 V c).Φ 0 := .rfl

theorem hout1 (c : Dev nD) : (dat1 V c).Φ (Fin.last cfg1.N) ⊢ Pipeline.ΦA spec1 c := Phi1_le V c cfg1.N le_rfl

theorem before1 (c : Dev nD) (t : Fin cfg1.N) : ∀ w : Fin 9, w ≠ 8 → ∀ d, (dat1 V c).before w t d = (dat1 V c).after w t := by
  intro w; fin_cases w <;> first
    | exact fun h => absurd rfl h
    | exact fun _ d => (dat1 V c).before_in_eq_fetched _ rfl (fun _ => rfl) (fun _ _ _ => rfl) (fun _ => rfl) t d

abbrev ms1 (t : Fin cfg1.N) (w : Fin cfg1.W) := (cfg1.win w).stage (cfg1.slots t w)
theorem hs1 (t : Fin cfg1.N) (w : Fin cfg1.W) : (ms1 t w).IsWhole := stage_whole1 w _

abbrev pre1 (c : Dev nD) (t : Fin cfg1.N) (w : Fin cfg1.W) : sProp 𝕄 := iprop(∃ d, owns c (ms1 t w) fullShare ((dat1 V c).before w t d))
abbrev post1 (c : Dev nD) (t : Fin cfg1.N) (w : Fin cfg1.W) : sProp 𝕄 := owns c (ms1 t w) fullShare ((dat1 V c).after w t)

def bodyPre1 (c : Dev nD) (t : Fin cfg1.N) : sProp 𝕄 :=
  iprop((dat1 V c).Φ t.castSucc ∗ (dat1 V c).owesAt () t.castSucc ∗ pre1 V c t 0 ∗ pre1 V c t 1 ∗ pre1 V c t 2 ∗ pre1 V c t 3
    ∗ pre1 V c t 4 ∗ pre1 V c t 5 ∗ pre1 V c t 6 ∗ pre1 V c t 7 ∗ pre1 V c t 8)

def bodyPost1 (c : Dev nD) (t : Fin cfg1.N) : sProp 𝕄 :=
  iprop(inv1 c (owns c scM1 fullShare (acc1 V c t.val t.isLt)) ∗ (dat1 V c).owesAt () t.castSucc ∗ post1 V c t 0 ∗ post1 V c t 1
    ∗ post1 V c t 2 ∗ post1 V c t 3 ∗ post1 V c t 4 ∗ post1 V c t 5 ∗ post1 V c t 6 ∗ post1 V c t 7 ∗ (dat1 V c).leavesExact 8 t)

theorem sound_body1 (c : Dev nD) (t : Fin cfg1.N) :
    bodyPre1 V c t ⊢ wp frame (wpE (defs₀ (F := F)) Variants.none c none) Set.univ (bodyAt1 t) (fun _ => bodyPost1 V c t) := by
  have hb := before1 V c t
  unfold bodyPre1 bodyPost1 bodyAt1 pre1 post1
  simp only [hb 0 (by decide), hb 1 (by decide), hb 2 (by decide), hb 3 (by decide), hb 4 (by decide), hb 5 (by decide),
    hb 6 (by decide), hb 7 (by decide)]
  by_cases h0 : t.val % 625 = 0
  · have h1 : ¬t.val % 625 = 624 := by omega
    have hc1 : ¬cond1_1 (grid1.coords t) := fun h => h1 ((hcond1_1 t).mp h)
    rw [Dat.leavesExact_idle (dat1 V c) 8 t (idleAt1_8 _ hc1) (noFlush1_8 t h1), acc1_first V c t h0]
    refine (sep_mono_left (Phi1_le V c _ _)).trans ?_
    rw [PhiA1_eq]; unfold inv1
    iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply run1_AB c (grid1.coords t) _ (hs1 t 0) _ (hs1 t 1) _ (hs1 t 2) _ (hs1 t 3) _ (hs1 t 4) _ (hs1 t 5) _ (hs1 t 6) _ (hs1 t 7)
      _ (hs1 t 8) scM1 (Memref.isWhole_whole _) hc1 ((dat1 V c).after 0 t) ((dat1 V c).after 1 t) ((dat1 V c).after 2 t) d Set.univ _
    rw [if_pos ((hcond1_0 t).mpr h0)]
    iframe H0 H1 H2 HS
    iintro ⟨H0, H1, H2, HS⟩
    iframe
    iexact HS
  · have hc0 : ¬cond1_0 (grid1.coords t) := fun h => h0 ((hcond1_0 t).mp h)
    rw [show (dat1 V c).Φ t.castSucc = Phi1 V c t.val (Nat.le_of_lt t.isLt) from rfl,
      Phi1_pos V c _ _ fun e => h0 (by rw [e]), acc1_next V c t h0]
    unfold inv1
    by_cases h1 : t.val % 625 = 624
    · have hc1 : cond1_1 (grid1.coords t) := (hcond1_1 t).mpr h1
      rw [show (dat1 V c).leavesExact 8 t = owns c (ms1 t 8) fullShare ((dat1 V c).after 8 t) from by
        unfold Dat.leavesExact; rw [liveAt1_8 _ hc1], after1_8, acc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply run1_C c (grid1.coords t) _ (hs1 t 0) _ (hs1 t 1) _ (hs1 t 2) _ (hs1 t 3) _ (hs1 t 4) _ (hs1 t 5) _ (hs1 t 6) _ (hs1 t 7)
        _ (hs1 t 8) scM1 (Memref.isWhole_whole _) hc0 hc1 ((dat1 V c).after 0 t) ((dat1 V c).after 1 t) ((dat1 V c).after 2 t)
        ((dat1 V c).after 3 t) ((dat1 V c).after 4 t) ((dat1 V c).after 5 t) ((dat1 V c).after 6 t) ((dat1 V c).after 7 t)
        ((dat1 V c).before 8 t d8) (acc1 V c (t.val - 1) (by omega)) Set.univ _
      iframe H0 H1 H2 H3 H4 H5 H6 H7 H8 HS
      iintro ⟨H0, H1, H2, H3, H4, H5, H6, H7, H8, HS⟩
      iframe
      isplitl [HS]; · iexact HS
      iexact H8
    · have hc1 : ¬cond1_1 (grid1.coords t) := fun h => h1 ((hcond1_1 t).mp h)
      rw [Dat.leavesExact_idle (dat1 V c) 8 t (idleAt1_8 _ hc1) (noFlush1_8 t h1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply run1_AB c (grid1.coords t) _ (hs1 t 0) _ (hs1 t 1) _ (hs1 t 2) _ (hs1 t 3) _ (hs1 t 4) _ (hs1 t 5) _ (hs1 t 6) _ (hs1 t 7)
        _ (hs1 t 8) scM1 (Memref.isWhole_whole _) hc1 ((dat1 V c).after 0 t) ((dat1 V c).after 1 t) ((dat1 V c).after 2 t)
        (acc1 V c (t.val - 1) (by omega)) Set.univ _
      rw [if_neg hc0]
      iframe H0 H1 H2 HS
      iintro ⟨H0, H1, H2, HS⟩
      iframe
      iexact HS

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«407445_j30339648979088_1_alg».proof.Proof.K.B0
import proofs.«407445_j30339648979088_1_alg».proof.Proof.K.Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem coordB2 (t : Fin cfg2.N) : (grid2.coords t 1).val = t.val % 40 := by
  show t.val / grid2.stride 1 % grid2.bound 1 = _
  rw [show grid2.stride 1 = 1 from by decide, Nat.div_one]; rfl

theorem hcond2_0 (t : Fin cfg2.N) : cond0_0 (grid2.coords t) ↔ t.val % 40 = 0 := by
  rw [← coordB2 t]
  exact cond0_0_word ((grid2.coords t) 1)
theorem hcond2_1 (t : Fin cfg2.N) : cond0_1 (grid2.coords t) ↔ t.val % 40 = 39 := by
  rw [← coordB2 t]
  exact cond0_1_word ((grid2.coords t) 1)

theorem idle2_3_eq (i : grid2.Coords) : cfg2.idle 3 i = !(k0_cond2 i == 1#1) := rfl
theorem idleAt2_3 (i : grid2.Coords) (h : ¬cond0_1 i) : cfg2.idle 3 i = true := by
  rw [idle2_3_eq, beq_eq_false_iff_ne.mpr h]; rfl
theorem liveAt2_3 (i : grid2.Coords) (h : cond0_1 i) : cfg2.idle 3 i = false := by
  rw [idle2_3_eq, beq_iff_eq.mpr h]; rfl

theorem noFlush2_3 (t : Fin cfg2.N) (h : ¬t.val % 40 = 39) : (cfg2.win 3).flush t = false :=
  Bool.eq_false_iff.mpr fun hf => h ((flush2_3 t).mp hf)

abbrev scM2 : Memref sig .tc .vmem S2560x128 .f32 := Memref.whole cc2_scratch0

def acc2 (c : Dev nD) : (n : ℕ) → n < cfg2.N → FVec F S2560x128 .f32
  | 0, hn => k0_pay2 (iblk2 V c 0 ⟨0, hn⟩) (iblk2 V c 1 ⟨0, hn⟩) k0_pay1 (iblk2 V c 2 ⟨0, hn⟩)
  | n + 1, hn =>
    if (n + 1) % 40 = 0 then k0_pay2 (iblk2 V c 0 ⟨n + 1, hn⟩) (iblk2 V c 1 ⟨n + 1, hn⟩) k0_pay1 (iblk2 V c 2 ⟨n + 1, hn⟩)
    else k0_pay2 (iblk2 V c 0 ⟨n + 1, hn⟩) (iblk2 V c 1 ⟨n + 1, hn⟩) (acc2 c n (Nat.lt_of_succ_lt hn)) (iblk2 V c 2 ⟨n + 1, hn⟩)

theorem acc2_first (c : Dev nD) (t : Fin cfg2.N) (h : t.val % 40 = 0) :
    acc2 V c t.val t.isLt = k0_pay2 (iblk2 V c 0 t) (iblk2 V c 1 t) k0_pay1 (iblk2 V c 2 t) := by
  obtain ⟨n, hn⟩ := t
  cases n with
  | zero => rfl
  | succ n => exact (if_pos h).trans rfl

theorem acc2_next (c : Dev nD) (t : Fin cfg2.N) (h : ¬ t.val % 40 = 0) :
    acc2 V c t.val t.isLt = k0_pay2 (iblk2 V c 0 t) (iblk2 V c 1 t) (acc2 V c (t.val - 1) (by omega)) (iblk2 V c 2 t) := by
  obtain ⟨n, hn⟩ := t
  cases n with
  | zero => exact absurd (Nat.zero_mod _) h
  | succ n => exact (if_neg h).trans rfl

def inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns c scM2 fullShare d) := by
  unfold Pipeline.ΦA inv2; rw [scopedRest2_split]; simp only [scM2, owns_whole]; rfl

def Phi2 (c : Dev nD) : (n : ℕ) → n ≤ cfg2.N → sProp 𝕄
  | 0, _ => Pipeline.ΦA spec2 c
  | n + 1, hn => inv2 c (owns c scM2 fullShare (acc2 V c n hn))

theorem Phi2_pos (c : Dev nD) (n : ℕ) (h : n ≤ cfg2.N) (hz : n ≠ 0) :
    Phi2 V c n h = inv2 c (owns c scM2 fullShare (acc2 V c (n - 1) (by omega))) := by
  cases n with
  | zero => exact absurd rfl hz
  | succ n => rfl

theorem Phi2_le (c : Dev nD) (n : ℕ) (h : n ≤ cfg2.N) : Phi2 V c n h ⊢ Pipeline.ΦA spec2 c := by
  cases n with
  | zero => exact .rfl
  | succ n =>
    rw [PhiA2_eq]; show inv2 c _ ⊢ _; unfold inv2
    iintro ⟨⟨HS, HR⟩, Hg⟩
    iframe HR Hg
    iexists _; iexact HS

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k0_pay3 (acc2 V c t.val t.isLt) := by dsimp only [dat2]

theorem hin2 (c : Dev nD) : Pipeline.ΦA spec2 c ⊢ (dat2 V c).Φ 0 := .rfl

theorem hout2 (c : Dev nD) : (dat2 V c).Φ (Fin.last cfg2.N) ⊢ Pipeline.ΦA spec2 c := Phi2_le V c cfg2.N le_rfl

theorem before2 (c : Dev nD) (t : Fin cfg2.N) : ∀ w : Fin 4, w ≠ 3 → ∀ d, (dat2 V c).before w t d = (dat2 V c).after w t := by
  intro w; fin_cases w <;> first
    | exact fun h => absurd rfl h
    | exact fun _ d => (dat2 V c).before_in_eq_fetched _ rfl (fun _ => rfl) (fun _ _ _ => rfl) (fun _ => rfl) t d

abbrev ms2 (t : Fin cfg2.N) (w : Fin cfg2.W) := (cfg2.win w).stage (cfg2.slots t w)
theorem hs2 (t : Fin cfg2.N) (w : Fin cfg2.W) : (ms2 t w).IsWhole := stage_whole2 w _

abbrev pre2 (c : Dev nD) (t : Fin cfg2.N) (w : Fin cfg2.W) : sProp 𝕄 := iprop(∃ d, owns c (ms2 t w) fullShare ((dat2 V c).before w t d))
abbrev post2 (c : Dev nD) (t : Fin cfg2.N) (w : Fin cfg2.W) : sProp 𝕄 := owns c (ms2 t w) fullShare ((dat2 V c).after w t)

def bodyPre2 (c : Dev nD) (t : Fin cfg2.N) : sProp 𝕄 :=
  iprop((dat2 V c).Φ t.castSucc ∗ (dat2 V c).owesAt () t.castSucc ∗ pre2 V c t 0 ∗ pre2 V c t 1 ∗ pre2 V c t 2 ∗ pre2 V c t 3)

def bodyPost2 (c : Dev nD) (t : Fin cfg2.N) : sProp 𝕄 :=
  iprop(inv2 c (owns c scM2 fullShare (acc2 V c t.val t.isLt)) ∗ (dat2 V c).owesAt () t.castSucc ∗ post2 V c t 0 ∗ post2 V c t 1
    ∗ post2 V c t 2 ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  have hb := before2 V c t
  unfold bodyPre2 bodyPost2 bodyAt2 pre2 post2
  simp only [hb 0 (by decide), hb 1 (by decide), hb 2 (by decide)]
  by_cases h0 : t.val % 40 = 0
  · have h1 : ¬t.val % 40 = 39 := by omega
    have hc1 : ¬cond0_1 (grid2.coords t) := fun h => h1 ((hcond2_1 t).mp h)
    rw [Dat.leavesExact_idle (dat2 V c) 3 t (idleAt2_3 _ hc1) (noFlush2_3 t h1), acc2_first V c t h0]
    refine (sep_mono_left (Phi2_le V c _ _)).trans ?_
    rw [PhiA2_eq]; unfold inv2
    iintro ⟨⟨⟨⟨%d, HS⟩, HR⟩, Hg⟩, Ho, ⟨%d0, H0⟩, ⟨%d1, H1⟩, ⟨%d2, H2⟩, H3⟩
    iapply run0_AB c (grid2.coords t) _ (hs2 t 0) _ (hs2 t 1) _ (hs2 t 2) _ (hs2 t 3) scM2 (Memref.isWhole_whole _) hc1
      ((dat2 V c).after 0 t) ((dat2 V c).after 1 t) ((dat2 V c).after 2 t) d Set.univ _
    rw [if_pos ((hcond2_0 t).mpr h0)]
    iframe H0 H1 H2 HS
    iintro ⟨H0, H1, H2, HS⟩
    iframe
    iexact HS
  · have hc0 : ¬cond0_0 (grid2.coords t) := fun h => h0 ((hcond2_0 t).mp h)
    rw [show (dat2 V c).Φ t.castSucc = Phi2 V c t.val (Nat.le_of_lt t.isLt) from rfl,
      Phi2_pos V c _ _ fun e => h0 (by rw [e]), acc2_next V c t h0]
    unfold inv2
    by_cases h1 : t.val % 40 = 39
    · have hc1 : cond0_1 (grid2.coords t) := (hcond2_1 t).mpr h1
      rw [show (dat2 V c).leavesExact 3 t = owns c (ms2 t 3) fullShare ((dat2 V c).after 3 t) from by
        unfold Dat.leavesExact; rw [liveAt2_3 _ hc1], after2_3, acc2_next V c t h0]
      iintro ⟨⟨⟨HS, HR⟩, Hg⟩, Ho, ⟨%d0, H0⟩, ⟨%d1, H1⟩, ⟨%d2, H2⟩, ⟨%d3, H3⟩⟩
      iapply run0_C c (grid2.coords t) _ (hs2 t 0) _ (hs2 t 1) _ (hs2 t 2) _ (hs2 t 3) scM2 (Memref.isWhole_whole _) hc0 hc1
        ((dat2 V c).after 0 t) ((dat2 V c).after 1 t) ((dat2 V c).after 2 t) ((dat2 V c).before 3 t d3)
        (acc2 V c (t.val - 1) (by omega)) Set.univ _
      iframe H0 H1 H2 H3 HS
      iintro ⟨H0, H1, H2, H3, HS⟩
      iframe
      isplitl [HS]; · iexact HS
      iexact H3
    · have hc1 : ¬cond0_1 (grid2.coords t) := fun h => h1 ((hcond2_1 t).mp h)
      rw [Dat.leavesExact_idle (dat2 V c) 3 t (idleAt2_3 _ hc1) (noFlush2_3 t h1)]
      iintro ⟨⟨⟨HS, HR⟩, Hg⟩, Ho, ⟨%d0, H0⟩, ⟨%d1, H1⟩, ⟨%d2, H2⟩, H3⟩
      iapply run0_AB c (grid2.coords t) _ (hs2 t 0) _ (hs2 t 1) _ (hs2 t 2) _ (hs2 t 3) scM2 (Memref.isWhole_whole _) hc1
        ((dat2 V c).after 0 t) ((dat2 V c).after 1 t) ((dat2 V c).after 2 t) (acc2 V c (t.val - 1) (by omega)) Set.univ _
      rw [if_neg hc0]
      iframe H0 H1 H2 HS
      iintro ⟨H0, H1, H2, HS⟩
      iframe
      iexact HS

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«407445_j30339648979088_1_alg».proof.Proof.K.B1
import proofs.«407445_j30339648979088_1_alg».proof.Proof.K.Sched
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem coords3_1 (t : Fin cfg3.N) : ((grid3.coords t) 1).val = t.val % 625 := by
  show t.val / grid3.stride 1 % grid3.bound 1 = t.val % 625
  rw [show grid3.stride 1 = 1 from by decide, Nat.div_one]; rfl

theorem hcond3_0 (t : Fin cfg3.N) : cond1_0 (grid3.coords t) ↔ t.val % 625 = 0 := by
  rw [← coords3_1 t]
  exact cond1_0_word ((grid3.coords t) 1)
theorem hcond3_1 (t : Fin cfg3.N) : cond1_1 (grid3.coords t) ↔ t.val % 625 = 624 := by
  rw [← coords3_1 t]
  exact cond1_1_word ((grid3.coords t) 1)

theorem idle3_8_eq (i : grid3.Coords) : cfg3.idle 8 i = !(k1_cond2 i == 1#1) := rfl
theorem idleAt3_8 (i : grid3.Coords) (h : ¬cond1_1 i) : cfg3.idle 8 i = true := by
  rw [idle3_8_eq, beq_eq_false_iff_ne.mpr h]; rfl
theorem liveAt3_8 (i : grid3.Coords) (h : cond1_1 i) : cfg3.idle 8 i = false := by
  rw [idle3_8_eq, beq_iff_eq.mpr h]; rfl

theorem noFlush3_8 (t : Fin cfg3.N) (h : ¬t.val % 625 = 624) : (cfg3.win 8).flush t = false :=
  Bool.eq_false_iff.mpr fun hf => h ((flush3_8 t).mp hf)

abbrev scM3 : Memref sig .tc .vmem S2560x128 .f32 := Memref.whole cc3_scratch0

def acc3 (c : Dev nD) : (n : ℕ) → n < cfg3.N → FVec F S2560x128 .f32
  | 0, hn => k1_pay2 (iblk3 V c 0 ⟨0, hn⟩) (iblk3 V c 1 ⟨0, hn⟩) k1_pay1 (iblk3 V c 2 ⟨0, hn⟩)
  | n + 1, hn =>
    if (n + 1) % 625 = 0 then k1_pay2 (iblk3 V c 0 ⟨n + 1, hn⟩) (iblk3 V c 1 ⟨n + 1, hn⟩) k1_pay1 (iblk3 V c 2 ⟨n + 1, hn⟩)
    else k1_pay2 (iblk3 V c 0 ⟨n + 1, hn⟩) (iblk3 V c 1 ⟨n + 1, hn⟩) (acc3 c n (Nat.lt_of_succ_lt hn)) (iblk3 V c 2 ⟨n + 1, hn⟩)

theorem acc3_first (c : Dev nD) (t : Fin cfg3.N) (h : t.val % 625 = 0) :
    acc3 V c t.val t.isLt = k1_pay2 (iblk3 V c 0 t) (iblk3 V c 1 t) k1_pay1 (iblk3 V c 2 t) := by
  obtain ⟨n, hn⟩ := t
  cases n with
  | zero => rfl
  | succ n => exact (if_pos h).trans rfl

theorem acc3_next (c : Dev nD) (t : Fin cfg3.N) (h : ¬ t.val % 625 = 0) :
    acc3 V c t.val t.isLt = k1_pay2 (iblk3 V c 0 t) (iblk3 V c 1 t) (acc3 V c (t.val - 1) (by omega)) (iblk3 V c 2 t) := by
  obtain ⟨n, hn⟩ := t
  cases n with
  | zero => exact absurd (Nat.zero_mod _) h
  | succ n => exact (if_neg h).trans rfl

def inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = inv3 c iprop(∃ d, owns c scM3 fullShare d) := by
  unfold Pipeline.ΦA inv3; rw [scopedRest3_split]; simp only [scM3, owns_whole]; rfl

def Phi3 (c : Dev nD) : (n : ℕ) → n ≤ cfg3.N → sProp 𝕄
  | 0, _ => Pipeline.ΦA spec3 c
  | n + 1, hn => inv3 c (owns c scM3 fullShare (acc3 V c n hn))

theorem Phi3_pos (c : Dev nD) (n : ℕ) (h : n ≤ cfg3.N) (hz : n ≠ 0) :
    Phi3 V c n h = inv3 c (owns c scM3 fullShare (acc3 V c (n - 1) (by omega))) := by
  cases n with
  | zero => exact absurd rfl hz
  | succ n => rfl

theorem Phi3_le (c : Dev nD) (n : ℕ) (h : n ≤ cfg3.N) : Phi3 V c n h ⊢ Pipeline.ΦA spec3 c := by
  cases n with
  | zero => exact .rfl
  | succ n =>
    rw [PhiA3_eq]; show inv3 c _ ⊢ _; unfold inv3
    iintro ⟨⟨HS, HR⟩, Hg⟩
    iframe HR Hg
    iexists _; iexact HS

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => k1_pay3 (acc3 V c t.val t.isLt) (iblk3 V c 3 t) (iblk3 V c 5 t) (iblk3 V c 4 t) (iblk3 V c 6 t) (iblk3 V c 7 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) :
    (dat3 V c).after 8 t = k1_pay3 (acc3 V c t.val t.isLt) (iblk3 V c 3 t) (iblk3 V c 5 t) (iblk3 V c 4 t) (iblk3 V c 6 t) (iblk3 V c 7 t) := by
  dsimp only [dat3]

theorem hin3 (c : Dev nD) : Pipeline.ΦA spec3 c ⊢ (dat3 V c).Φ 0 := .rfl

theorem hout3 (c : Dev nD) : (dat3 V c).Φ (Fin.last cfg3.N) ⊢ Pipeline.ΦA spec3 c := Phi3_le V c cfg3.N le_rfl

theorem before3 (c : Dev nD) (t : Fin cfg3.N) : ∀ w : Fin 9, w ≠ 8 → ∀ d, (dat3 V c).before w t d = (dat3 V c).after w t := by
  intro w; fin_cases w <;> first
    | exact fun h => absurd rfl h
    | exact fun _ d => (dat3 V c).before_in_eq_fetched _ rfl (fun _ => rfl) (fun _ _ _ => rfl) (fun _ => rfl) t d

abbrev ms3 (t : Fin cfg3.N) (w : Fin cfg3.W) := (cfg3.win w).stage (cfg3.slots t w)
theorem hs3 (t : Fin cfg3.N) (w : Fin cfg3.W) : (ms3 t w).IsWhole := stage_whole3 w _

abbrev pre3 (c : Dev nD) (t : Fin cfg3.N) (w : Fin cfg3.W) : sProp 𝕄 := iprop(∃ d, owns c (ms3 t w) fullShare ((dat3 V c).before w t d))
abbrev post3 (c : Dev nD) (t : Fin cfg3.N) (w : Fin cfg3.W) : sProp 𝕄 := owns c (ms3 t w) fullShare ((dat3 V c).after w t)

def bodyPre3 (c : Dev nD) (t : Fin cfg3.N) : sProp 𝕄 :=
  iprop((dat3 V c).Φ t.castSucc ∗ (dat3 V c).owesAt () t.castSucc ∗ pre3 V c t 0 ∗ pre3 V c t 1 ∗ pre3 V c t 2 ∗ pre3 V c t 3
    ∗ pre3 V c t 4 ∗ pre3 V c t 5 ∗ pre3 V c t 6 ∗ pre3 V c t 7 ∗ pre3 V c t 8)

def bodyPost3 (c : Dev nD) (t : Fin cfg3.N) : sProp 𝕄 :=
  iprop(inv3 c (owns c scM3 fullShare (acc3 V c t.val t.isLt)) ∗ (dat3 V c).owesAt () t.castSucc ∗ post3 V c t 0 ∗ post3 V c t 1
    ∗ post3 V c t 2 ∗ post3 V c t 3 ∗ post3 V c t 4 ∗ post3 V c t 5 ∗ post3 V c t 6 ∗ post3 V c t 7 ∗ (dat3 V c).leavesExact 8 t)

theorem sound_body3 (c : Dev nD) (t : Fin cfg3.N) :
    bodyPre3 V c t ⊢ wp frame (wpE (defs₀ (F := F)) Variants.none c none) Set.univ (bodyAt3 t) (fun _ => bodyPost3 V c t) := by
  have hb := before3 V c t
  unfold bodyPre3 bodyPost3 bodyAt3 pre3 post3
  simp only [hb 0 (by decide), hb 1 (by decide), hb 2 (by decide), hb 3 (by decide), hb 4 (by decide), hb 5 (by decide),
    hb 6 (by decide), hb 7 (by decide)]
  by_cases h0 : t.val % 625 = 0
  · have h1 : ¬t.val % 625 = 624 := by omega
    have hc1 : ¬cond1_1 (grid3.coords t) := fun h => h1 ((hcond3_1 t).mp h)
    rw [Dat.leavesExact_idle (dat3 V c) 8 t (idleAt3_8 _ hc1) (noFlush3_8 t h1), acc3_first V c t h0]
    refine (sep_mono_left (Phi3_le V c _ _)).trans ?_
    rw [PhiA3_eq]; unfold inv3
    iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply run1_AB c (grid3.coords t) _ (hs3 t 0) _ (hs3 t 1) _ (hs3 t 2) _ (hs3 t 3) _ (hs3 t 4) _ (hs3 t 5) _ (hs3 t 6) _ (hs3 t 7)
      _ (hs3 t 8) scM3 (Memref.isWhole_whole _) hc1 ((dat3 V c).after 0 t) ((dat3 V c).after 1 t) ((dat3 V c).after 2 t) d Set.univ _
    rw [if_pos ((hcond3_0 t).mpr h0)]
    iframe H0 H1 H2 HS
    iintro ⟨H0, H1, H2, HS⟩
    iframe
    iexact HS
  · have hc0 : ¬cond1_0 (grid3.coords t) := fun h => h0 ((hcond3_0 t).mp h)
    rw [show (dat3 V c).Φ t.castSucc = Phi3 V c t.val (Nat.le_of_lt t.isLt) from rfl,
      Phi3_pos V c _ _ fun e => h0 (by rw [e]), acc3_next V c t h0]
    unfold inv3
    by_cases h1 : t.val % 625 = 624
    · have hc1 : cond1_1 (grid3.coords t) := (hcond3_1 t).mpr h1
      rw [show (dat3 V c).leavesExact 8 t = owns c (ms3 t 8) fullShare ((dat3 V c).after 8 t) from by
        unfold Dat.leavesExact; rw [liveAt3_8 _ hc1], after3_8, acc3_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply run1_C c (grid3.coords t) _ (hs3 t 0) _ (hs3 t 1) _ (hs3 t 2) _ (hs3 t 3) _ (hs3 t 4) _ (hs3 t 5) _ (hs3 t 6) _ (hs3 t 7)
        _ (hs3 t 8) scM3 (Memref.isWhole_whole _) hc0 hc1 ((dat3 V c).after 0 t) ((dat3 V c).after 1 t) ((dat3 V c).after 2 t)
        ((dat3 V c).after 3 t) ((dat3 V c).after 4 t) ((dat3 V c).after 5 t) ((dat3 V c).after 6 t) ((dat3 V c).after 7 t)
        ((dat3 V c).before 8 t d8) (acc3 V c (t.val - 1) (by omega)) Set.univ _
      iframe H0 H1 H2 H3 H4 H5 H6 H7 H8 HS
      iintro ⟨H0, H1, H2, H3, H4, H5, H6, H7, H8, HS⟩
      iframe
      isplitl [HS]; · iexact HS
      iexact H8
    · have hc1 : ¬cond1_1 (grid3.coords t) := fun h => h1 ((hcond3_1 t).mp h)
      rw [Dat.leavesExact_idle (dat3 V c) 8 t (idleAt3_8 _ hc1) (noFlush3_8 t h1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply run1_AB c (grid3.coords t) _ (hs3 t 0) _ (hs3 t 1) _ (hs3 t 2) _ (hs3 t 3) _ (hs3 t 4) _ (hs3 t 5) _ (hs3 t 6) _ (hs3 t 7)
        _ (hs3 t 8) scM3 (Memref.isWhole_whole _) hc1 ((dat3 V c).after 0 t) ((dat3 V c).after 1 t) ((dat3 V c).after 2 t)
        (acc3 V c (t.val - 1) (by omega)) Set.univ _
      rw [if_neg hc0]
      iframe H0 H1 H2 HS
      iintro ⟨H0, H1, H2, HS⟩
      iframe
      iexact HS

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«407445_j30339648979088_1_alg».proof.Proof.Gen.Kernel.Skeleton
import proofs.«407445_j30339648979088_1_alg».proof.Proof.K.Sched
import proofs.«407445_j30339648979088_1_alg».proof.Proof.K.Own
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

set_option maxHeartbeats 1000000 in
theorem sound_kernel4 (c : Dev nD) (E : Set ℕ) (i : grid4.Coords)
    (arg1 : Memref sig .tc .vmem S2560x128 .bf16) (harg1 : arg1.IsWhole) (arg2 : Memref sig .tc .vmem S128x2 .bf16) (harg2 : arg2.IsWhole)
    (arg3 : Memref sig .tc .vmem S1x2 .f32) (harg3 : arg3.IsWhole) (arg4 : Memref sig .tc .vmem S2560x2 .f32) (harg4 : arg4.IsWhole)
    (x0 : Vec F S2560x128 .bf16) (x1 : Vec F S128x2 .bf16) (x2 : Vec F S1x2 .f32) (d : Vec F S2560x2 .f32) (K : PUnit → sProp 𝕄) :
    iprop(owns c arg1 fullShare x0 ∗ owns c arg2 fullShare x1 ∗ owns c arg3 fullShare x2 ∗ owns c arg4 fullShare d
        ∗ (iprop(owns c arg1 fullShare x0 ∗ owns c arg2 fullShare x1 ∗ owns c arg3 fullShare x2
            ∗ owns c arg4 fullShare (k4_pay1 x0 x1 x2)) -∗ K ⟨⟩))
      ⊢ wp frame (wpE (defs₀ (F := F)) Variants.none c none) E (cc4__linear_kernel i arg1 harg1 arg2 harg2 arg3 harg3 arg4 harg4) K := by
  rw [owns_unread harg1 x0, owns_unread harg2 x1, owns_unread harg3 x2, owns_unread harg4 d]
  simp only [cc4__linear_kernel_eq_skeleton]; unfold cc4__linear_kernel_skel
  iintro ⟨H0, H1, H2, H3, Hk⟩
  sl_exec
  sl_step
  iapply Hk
  iframe H0 H1 H2
  unfold owns; iexists _; isplitr
  swap; · iexact H3
  ipureintro
  rw [read_writes_unit0 _ _ off2_zero, readAt_unit0 arg1 harg1 off2_zero, readAt_unit0 arg2 harg2 off2_zero,
    readAt_unit0 arg3 harg3 off2_zero]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay1 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = k4_pay1 (iblk4 V c 0 t) (iblk4 V c 1 t) (iblk4 V c 2 t) := by dsimp only [dat4]

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

theorem before4 (c : Dev nD) (t : Fin cfg4.N) : ∀ w : Fin 4, w ≠ 3 → ∀ d, (dat4 V c).before w t d = (dat4 V c).after w t := by
  intro w; fin_cases w <;> first
    | exact fun h => absurd rfl h
    | exact fun _ d => (dat4 V c).before_in_eq_fetched _ rfl (fun _ => rfl) (fun _ _ _ => rfl) (fun _ => rfl) t d

abbrev ms4 (t : Fin cfg4.N) (w : Fin cfg4.W) := (cfg4.win w).stage (cfg4.slots t w)
theorem hs4 (t : Fin cfg4.N) (w : Fin cfg4.W) : (ms4 t w).IsWhole := stage_whole4 w _

abbrev pre4 (c : Dev nD) (t : Fin cfg4.N) (w : Fin cfg4.W) : sProp 𝕄 := iprop(∃ d, owns c (ms4 t w) fullShare ((dat4 V c).before w t d))
abbrev post4 (c : Dev nD) (t : Fin cfg4.N) (w : Fin cfg4.W) : sProp 𝕄 := owns c (ms4 t w) fullShare ((dat4 V c).after w t)

def bodyPre4 (c : Dev nD) (t : Fin cfg4.N) : sProp 𝕄 :=
  iprop((dat4 V c).Φ t.castSucc ∗ (dat4 V c).owesAt () t.castSucc ∗ pre4 V c t 0 ∗ pre4 V c t 1 ∗ pre4 V c t 2 ∗ pre4 V c t 3)

def bodyPost4 (c : Dev nD) (t : Fin cfg4.N) : sProp 𝕄 :=
  iprop((dat4 V c).Φ t.castSucc ∗ (dat4 V c).owesAt () t.castSucc ∗ post4 V c t 0 ∗ post4 V c t 1 ∗ post4 V c t 2 ∗ post4 V c t 3)

theorem sound_body4 (c : Dev nD) (t : Fin cfg4.N) :
    bodyPre4 V c t ⊢ wp frame (wpE (defs₀ (F := F)) Variants.none c none) Set.univ (bodyAt4 t) (fun _ => bodyPost4 V c t) := by
  have hb := before4 V c t
  unfold bodyPre4 bodyPost4 bodyAt4 pre4 post4
  simp only [hb 0 (by decide), hb 1 (by decide), hb 2 (by decide)]
  iintro ⟨HΦ, Ho, ⟨%d0, H0⟩, ⟨%d1, H1⟩, ⟨%d2, H2⟩, ⟨%d3, H3⟩⟩
  iapply sound_kernel4 c Set.univ (grid4.coords t) _ (hs4 t 0) _ (hs4 t 1) _ (hs4 t 2) _ (hs4 t 3)
    ((dat4 V c).after 0 t) ((dat4 V c).after 1 t) ((dat4 V c).after 2 t) ((dat4 V c).before 3 t d3) _
  iframe H0 H1 H2 H3
  iintro ⟨H0, H1, H2, H3⟩
  iframe
  iexact H3

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Segs.lean ====
import proofs.«407445_j30339648979088_1_alg».proof.Proof.K.R0
import proofs.«407445_j30339648979088_1_alg».proof.Proof.K.R1
import proofs.«407445_j30339648979088_1_alg».proof.Proof.K.R2
import proofs.«407445_j30339648979088_1_alg».proof.Proof.K.R3
import proofs.«407445_j30339648979088_1_alg».proof.Proof.K.R4
import proofs.«407445_j30339648979088_1_alg».proof.Proof.Gen.Kernel.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev Vin0 := atTc (V1 m)
/-- What region 0 leaves in its output array; so below, each region entered from contents that hold the earlier results. -/
def o29 (c : Dev nD) : Buf (Elt F) ((c : Thread nD τ).loc main_v29) := (dat0 (Vin0 m) c).arrAt 3 cfg0.N
def W2 (c : Dev nD) : Valuation τ sig (Elt F) := Function.update (V1 m c) main_v29 (o29 m c)
def o30 (c : Dev nD) : Buf (Elt F) ((c : Thread nD τ).loc main_v30) := (dat1 (atTc (W2 m)) c).arrAt 8 cfg1.N
def W4 (c : Dev nD) : Valuation τ sig (Elt F) := StableHlo.after hostOps2 (Function.update (W2 m c) main_v30 (o30 m c))
def o34 (c : Dev nD) : Buf (Elt F) ((c : Thread nD τ).loc main_v34) := (dat2 (atTc (W4 m)) c).arrAt 3 cfg2.N
def W5 (c : Dev nD) : Valuation τ sig (Elt F) := Function.update (W4 m c) main_v34 (o34 m c)
def o35 (c : Dev nD) : Buf (Elt F) ((c : Thread nD τ).loc main_v35) := (dat3 (atTc (W5 m)) c).arrAt 8 cfg3.N
def W7 (c : Dev nD) : Valuation τ sig (Elt F) := StableHlo.after hostOps4 (Function.update (W5 m c) main_v35 (o35 m c))
def o38 (c : Dev nD) : Buf (Elt F) ((c : Thread nD τ).loc main_v38) := (dat4 (atTc (W7 m)) c).arrAt 3 cfg4.N

/-- The launch contents but for one reference, which holds `o`. -/
def out1 (r : Ref sig .tc) (o : (c : Dev nD) → Buf (Elt F) ((c : Thread nD τ).loc r)) :
    (r' : Ref sig .tc) → (c : Dev nD) → Buf (Elt F) ((c : Thread nD τ).loc r') :=
  Function.update (fun r' c => m ((c : Thread nD τ).loc r')) r o
theorem out1_self (r : Ref sig .tc) (o : (c : Dev nD) → Buf (Elt F) ((c : Thread nD τ).loc r)) (c : Dev nD) :
    out1 m r o r c = o c := by unfold out1; rw [Function.update_self]

def outs : Outs (F := F) := fun
  | 2 => out1 m main_v29 (o29 m)
  | 3 => out1 m main_v30 (o30 m)
  | 5 => out1 m main_v34 (o34 m)
  | 6 => out1 m main_v35 (o35 m)
  | 8 => out1 m main_v38 (o38 m)
  | _ => fun r c => m ((c : Thread nD τ).loc r)

abbrev Vin1 := atTc (V2 m (outs m))
abbrev Vin2 := atTc (V4 m (outs m))
abbrev Vin3 := atTc (V5 m (outs m))
abbrev Vin4 := atTc (V7 m (outs m))

theorem outs2_eq (c : Dev nD) : outs m 2 main_v29 c = (dat0 (Vin0 m) c).arrAt 3 cfg0.N := out1_self m _ _ c
theorem V2_eq : V2 m (outs m) = W2 m := funext fun c => by unfold V2 W2; rw [outs2_eq]; rfl
theorem outs3_eq (c : Dev nD) : outs m 3 main_v30 c = (dat1 (Vin1 m) c).arrAt 8 cfg1.N := by
  unfold Vin1; rw [V2_eq]; exact out1_self m _ _ c
theorem V4_eq : V4 m (outs m) = W4 m := funext fun c => by unfold V4 V3 W4; rw [outs3_eq, V2_eq]; rfl
theorem outs5_eq (c : Dev nD) : outs m 5 main_v34 c = (dat2 (Vin2 m) c).arrAt 3 cfg2.N := by
  unfold Vin2; rw [V4_eq]; exact out1_self m _ _ c
theorem V5_eq : V5 m (outs m) = W5 m := funext fun c => by unfold V5 W5; rw [outs5_eq, V4_eq]; rfl
theorem outs6_eq (c : Dev nD) : outs m 6 main_v35 c = (dat3 (Vin3 m) c).arrAt 8 cfg3.N := by
  unfold Vin3; rw [V5_eq]; exact out1_self m _ _ c
theorem V7_eq : V7 m (outs m) = W7 m := funext fun c => by unfold V7 V6 W7; rw [outs6_eq, V5_eq]; rfl
theorem outs8_eq (c : Dev nD) : outs m 8 main_v38 c = (dat4 (Vin4 m) c).arrAt 3 cfg4.N := by
  unfold Vin4; rw [V7_eq]; exact out1_self m _ _ c

def pdats : (p : Fin 5) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c

abbrev L : GSem nD τ sig → Finset Unit := fun _ => ∅
abbrev lv : GSem nD τ sig → Unit → ℕ := fun _ _ => 0

abbrev E : Fin 6 → Dev nD → sProp 𝕄 :=
  fun _ c => iprop((∃ r, prngReg c r) ∗ ∃ W, owes (c : Thread nD τ) (0 : CellTallies nD τ sig Unit) W)

theorem pdats_facts : ∀ (p : Fin 5) (c : Dev nD), (∀ w, (pdats m p c).q w = fullShare) ∧ (∀ t, (pdats m p c).owed t = 0)
    ∧ (pdats m p c).recorded 0 = Set.univ
  | 0, _ | 1, _ | 2, _ | 3, _ | 4, _ => ⟨fun _ => rfl, fun _ => rfl, rfl⟩

def mkReg {p : Fin 5} (lf : Pipeline.LaunchFacts (nD := nD) (τ := τ) cfgs p) (Vi Vo : Dev nD → Valuation τ sig (Elt F)) (i j : Fin 6)
    (wo : Fin (cfgs p).W) (hA : ∀ c w, (pdats m p c).A w = atTc Vi c (Pipeline.arrRef (cfgs p).spec w))
    (hb : ∀ c, BodyObligation (pdats m p c) (defs₀ (F := F)) Variants.none () Set.univ)
    (hi : ∀ c, Pipeline.ΦA (cfgs p).spec c ⊢ (pdats m p c).Φ 0)
    (ho : ∀ c, (pdats m p c).Φ (Fin.last (cfgs p).N) ⊢ Pipeline.ΦA (cfgs p).spec c)
    (hin : ∀ w, w ≠ wo → ((cfgs p).win w).isOut = false)
    (hat : ∀ c, atTc Vo c (Pipeline.arrRef (cfgs p).spec wo) = (pdats m p c).arrAt wo (cfgs p).N)
    (hof : ∀ c (r : Ref sig .tc), r ∉ [Pipeline.arrRef (cfgs p).spec wo] → Vo c r = Vi c r) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_facts m p c).2.1
  pre c := iprop(StableHlo.held (c : Thread nD τ) (Pipeline.ucRefs τ sig) (Vi c) ∗ E i c)
  post c := iprop(StableHlo.held (c : Thread nD τ) (Pipeline.ucRefs τ sig) (Vo c) ∗ E j c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (pdats_facts m p c).1) (atTc Vi c) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound
    rw [(pdats_facts m p c).2.1, (pdats_facts m p c).2.2]
    icases HO with ⟨%W, HO⟩; iexists W; iframe HO; ipureintro; exact fun _ _ => Or.inl trivial
  hin c := by
    refine BIBase.Entails.trans ?_ (hi c)
    unfold Pipeline.ΦA
    iintro ⟨Hp, -, Hr⟩
    iframe
  hout c := by
    rw [Pipeline.ownSems0_none]
    refine (ho c).trans ?_
    unfold Pipeline.ΦA
    iintro ⟨Hr, Hp⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_facts m p c).1)
      (atTc Vi c) (atTc Vo c) ((pdats m p c).arrAt · (cfgs p).N)
      (fun w => by
        rcases eq_or_ne w wo with rfl | h
        · exact (hat c).symm
        · exact ((pdats m p c).arrAt_in w (hin w h) _).trans ((hA c w).trans (hof c _ (mt List.mem_singleton.mp (lf.win.arr_inj.ne h))).symm))
      (fun b hb => hof c b fun h => hb (List.mem_singleton.mp h ▸ Finset.mem_image_of_mem _ (Finset.mem_univ wo)))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    rw [(pdats_facts m p c).2.1]
    icases HO with ⟨%W, -, HO⟩; iexists W; iexact HO

def reg0 : Pipeline.RegionSeg (pcfgs (F := F)) adm (pdats m) () defs₀ Variants.none L lv 0 :=
  mkReg m launch0 (V1 m) (V2 m (outs m)) 0 1 (3 : Fin 4) (A_eq0 _) (body_obligation0 _) (hin0 _) (hout0 _) (by decide)
    (fun c => (Function.update_self ..).trans (outs2_eq m c)) (V2_of m _)
def reg1 : Pipeline.RegionSeg (pcfgs (F := F)) adm (pdats m) () defs₀ Variants.none L lv 1 :=
  mkReg m launch1 (V2 m (outs m)) (V3 m (outs m)) 1 2 (8 : Fin 9) (A_eq1 _) (body_obligation1 _) (hin1 _) (hout1 _) (by decide)
    (fun c => (Function.update_self ..).trans (outs3_eq m c)) (V3_of m _)
def reg2 : Pipeline.RegionSeg (pcfgs (F := F)) adm (pdats m) () defs₀ Variants.none L lv 2 :=
  mkReg m launch2 (V4 m (outs m)) (V5 m (outs m)) 2 3 (3 : Fin 4) (A_eq2 _) (body_obligation2 _) (hin2 _) (hout2 _) (by decide)
    (fun c => (Function.update_self ..).trans (outs5_eq m c)) (V5_of m _)
def reg3 : Pipeline.RegionSeg (pcfgs (F := F)) adm (pdats m) () defs₀ Variants.none L lv 3 :=
  mkReg m launch3 (V5 m (outs m)) (V6 m (outs m)) 3 4 (8 : Fin 9) (A_eq3 _) (body_obligation3 _) (hin3 _) (hout3 _) (by decide)
    (fun c => (Function.update_self ..).trans (outs6_eq m c)) (V6_of m _)
def reg4 : Pipeline.RegionSeg (pcfgs (F := F)) adm (pdats m) () defs₀ Variants.none L lv 4 :=
  mkReg m launch4 (V7 m (outs m)) (V8 m (outs m)) 4 5 (3 : Fin 4) (A_eq4 _) (body_obligation4 _) (hin4 _) (hout4 _) (by decide)
    (fun c => (Function.update_self ..).trans (outs8_eq m c)) (V8_of m _)

end Cert.Kernel.Hand

end
-- ==== Proof.K.Frame.lean ====
import proofs.«407445_j30339648979088_1_alg».proof.Proof.K.Segs

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m (emb₁ : Emb (URounds (GSem nD τ sig) Unit) 𝕄) () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by

      refine Pipeline.initEach L lv fun c => ?_
      iintro ⟨⟨-, HO, -, Hp, -⟩, -⟩
      imodintro
      isplitl [Hp]; · iexists _; iexact Hp
      iexists ∅; iexact HO)
    (hE5 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)

end Cert.Kernel.Hand

end
-- ==== Proof.KI.Own.lean ====
import proofs.«407445_j30339648979088_1_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → ℕ) = fun _ => 0 := by
  funext a; fin_cases a <;> rfl

theorem readAt_unit0 {sp : Space} {S : Shape} {e : EltTy} (m : Memref sig .tc sp S e) (hm : m.IsWhole)
    {off : Fin S.rank → ℕ} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h inb]

theorem read_writes_unit0 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

-- reading through a whole memref is a bijection, so its contents are named by what it reads
theorem owns_unread {c : Thread nD τ} {sp : Space} {S : Shape} {e : EltTy} {m : Memref sig c.2.kind sp S e} (hm : m.IsWhole)
    (x : S.Idx → Elt F e) {q : PosShare TreeShare} :
    (owns c m q x : sProp 𝕄) = (m.view.loc c ↦[m.view.set]{q} hm.unread x) := by
  unfold owns
  refine BI.Entails.antisymm ?_ ?_ <;> show (_ : sProp 𝕄) ⊢ _
  · iintro ⟨%g, %hg, H⟩; obtain rfl := hm.eq_unread hg; iexact H
  · iintro H; iexists _; isplitr; · ipureintro; exact hm.read_unread x
    iexact H

end Cert.KernelIdeal.Hand

end
-- ==== Proof.KI.B0.lean ====
import proofs.«407445_j30339648979088_1_alg».proof.Proof.KI.Own
import proofs.«407445_j30339648979088_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem cond0_0_word : ∀ v : Fin 40,
    (Scalar.cmpi .ne (Scalar.extui (Scalar.cmpi .eq (BitVec.ofNat 32 v.val) 0#32)) 0#32) = 1#1 ↔ v.val = 0 := by
  decide +kernel
theorem cond0_1_word : ∀ v : Fin 40,
    (Scalar.cmpi .ne (Scalar.extui (Scalar.cmpi .eq (BitVec.ofNat 32 v.val) 39#32)) 0#32) = 1#1 ↔ v.val = 39 := by
  decide +kernel

set_option maxHeartbeats 1000000 in
theorem run0_AB (c : Dev nD) (i : grid0.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x128 .bf16) (harg5 : arg5.IsWhole)
    (arg6 : Memref sig .tc .vmem S2560x128 .f32) (harg6 : arg6.IsWhole)
    (hc1 : ¬cond0_1 i)
    (x0 : Vec F S2560x1 .i32) (x1 : Vec F S1x2560 .i32) (x2 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg6 fullShare xs
        ∗ (iprop(owns c arg2 fullShare x0 ∗ owns c arg3 fullShare x1 ∗ owns c arg4 fullShare x2
            ∗ owns c arg6 fullShare (k0_pay2 x0 x1 (if cond0_0 i then k0_pay1 else xs) x2)) -∗ K ⟨⟩))
      ⊢ wp frame (wpE (defs₀ (F := F)) Variants.none c none) E (cc0__gather_kernel i arg2 harg2 arg3 harg3 arg4 harg4 arg5 harg5 arg6 harg6) K := by
  rw [owns_unread harg2 x0, owns_unread harg3 x1, owns_unread harg4 x2, owns_unread harg6 xs]
  simp only [cc0__gather_kernel_eq_skeleton]; unfold cc0__gather_kernel_skel
  iintro ⟨H0, H1, H2, HS, Hk⟩
  by_cases hc0 : cond0_0 i
  all_goals
    first | rw [if_pos hc0] | rw [if_neg hc0]
    sl_exec (disch := first | exact hc0 | exact hc1)
    sl_step
    iapply Hk
    iframe H0 H1 H2
    unfold owns; iexists _; isplitr
    swap; · iexact HS
    ipureintro
  · sl_unfold_words
    rw [read_writes_unit0 _ _ off2_zero, View.readCov_unit_zero (S := S2560x128) _ off2_zero, readAt_unit0 arg2 harg2 off2_zero,
      readAt_unit0 arg3 harg3 off2_zero, readAt_unit0 arg4 harg4 off2_zero]
  · rw [read_writes_unit0 _ _ off2_zero, readAt_unit0 arg2 harg2 off2_zero, readAt_unit0 arg3 harg3 off2_zero,
      readAt_unit0 arg4 harg4 off2_zero, readAt_unit0 arg6 harg6 off2_zero]

set_option maxHeartbeats 1000000 in
theorem run0_C (c : Dev nD) (i : grid0.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x128 .bf16) (harg5 : arg5.IsWhole)
    (arg6 : Memref sig .tc .vmem S2560x128 .f32) (harg6 : arg6.IsWhole)
    (hc0 : ¬cond0_0 i) (hc1 : cond0_1 i)
    (x0 : Vec F S2560x1 .i32) (x1 : Vec F S1x2560 .i32) (x2 : Vec F S2560x128 .bf16) (x3 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg5 fullShare x3 ∗ owns c arg6 fullShare xs
        ∗ (iprop(owns c arg2 fullShare x0 ∗ owns c arg3 fullShare x1 ∗ owns c arg4 fullShare x2
            ∗ owns c arg5 fullShare (k0_pay3 (k0_pay2 x0 x1 xs x2)) ∗ owns c arg6 fullShare (k0_pay2 x0 x1 xs x2)) -∗ K ⟨⟩))
      ⊢ wp frame (wpE (defs₀ (F := F)) Variants.none c none) E (cc0__gather_kernel i arg2 harg2 arg3 harg3 arg4 harg4 arg5 harg5 arg6 harg6) K := by
  rw [owns_unread harg2 x0, owns_unread harg3 x1, owns_unread harg4 x2, owns_unread harg5 x3, owns_unread harg6 xs]
  simp only [cc0__gather_kernel_eq_skeleton]; unfold cc0__gather_kernel_skel
  iintro ⟨H0, H1, H2, H3, HS, Hk⟩
  sl_exec (disch := first | exact hc0 | exact hc1)
  sl_step
  iapply Hk
  iframe H0 H1 H2
  unfold owns
  isplitl [H3]
  · iexists _; isplitr
    swap; · iexact H3
    ipureintro
    sl_unfold_words
    rw [read_writes_unit0 _ _ off2_zero, View.readCov_unit_zero (S := S2560x128) _ off2_zero, readAt_unit0 arg2 harg2 off2_zero,
      readAt_unit0 arg3 harg3 off2_zero, readAt_unit0 arg6 harg6 off2_zero, readAt_unit0 arg4 harg4 off2_zero]
  iexists _; isplitr
  swap; · iexact HS
  ipureintro
  sl_unfold_words
  rw [read_writes_unit0 _ _ off2_zero, readAt_unit0 arg2 harg2 off2_zero, readAt_unit0 arg3 harg3 off2_zero,
    readAt_unit0 arg4 harg4 off2_zero, readAt_unit0 arg6 harg6 off2_zero]

end Cert.KernelIdeal.Hand

end
-- ==== Proof.KI.Sched.lean ====
import proofs.«407445_j30339648979088_1_alg».proof.Proof.Gen.KernelIdeal.Launch
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

-- a number below 2³² is the value of its word
theorem index_outer (n : Nat) (h : n < 2 ^ 32) :
    (![(BitVec.ofNat 32 n).toNat, (0#32 : BitVec 32).toNat] : Fin 2 → Nat) = ![n, 0] := by
  rw [BitVec.toNat_ofNat, Nat.mod_eq_of_lt h]; rfl

theorem pair_fst (a a' : Nat) : (![a, 0] : Fin 2 → Nat) = ![a', 0] ↔ a = a' :=
  ⟨fun h => congrFun h 0, fun h => by rw [h]⟩

theorem flush_of_key {G : Pipeline.Grid} (w : Pipeline.Window sig G) (hout : w.isOut = true) (key : Nat → Nat)
    (hkey : ∀ t t' : Fin G.N, w.index t = w.index t' ↔ key t.val = key t'.val) (N : Nat) (hN : G.N = N) (t : Fin G.N) :
    w.flush t = true ↔ t.val + 1 = N ∨ (t.val + 1 < N ∧ key (t.val + 1) ≠ key t.val) := by
  rw [w.flush_out hout t, ← hN]
  constructor
  · rintro (h | ⟨h, hne⟩)
    · exact .inl h
    · exact .inr ⟨h, fun e => hne ((hkey ⟨t.val + 1, h⟩ t).2 e)⟩
  · rintro (h | ⟨h, hne⟩)
    · exact .inl h
    · exact .inr ⟨h, fun e => hne ((hkey ⟨t.val + 1, h⟩ t).1 e)⟩

theorem coordA0 (t : Fin cfg0.N) : (grid0.coords t 0).val = t.val / 40 := by
  have hN : t.val < 25000 := lt_of_lt_of_eq t.isLt (show cfg0.N = 25000 from N_0)
  show t.val / grid0.stride 0 % grid0.bound 0 = _
  rw [show grid0.stride 0 = 40 from by decide]
  show t.val / 40 % 625 = _
  omega

theorem index0_3 (t : Fin cfg0.N) : (cfg0.win 3).index t = ![t.val / 40, 0] := by
  have hN : t.val < 25000 := lt_of_lt_of_eq t.isLt (show cfg0.N = 25000 from N_0)
  show (![(BitVec.ofNat 32 (grid0.coords t 0).val).toNat, (0#32 : BitVec 32).toNat] : Fin 2 → Nat) = _
  rw [coordA0 t]; exact index_outer _ (by omega)

theorem flush0_3 : ∀ t : Fin cfg0.N, (cfg0.win 3).flush t = true ↔ t.val % 40 = 39 := fun t => by
  have hN : t.val < 25000 := lt_of_lt_of_eq t.isLt (show cfg0.N = 25000 from N_0)
  refine (flush_of_key (cfg0.win 3) rfl (fun n => n / 40) (fun t t' => by rw [index0_3, index0_3]; exact pair_fst _ _) 25000 N_0 t).trans ?_
  show t.val + 1 = 25000 ∨ (t.val + 1 < 25000 ∧ (t.val + 1) / 40 ≠ t.val / 40) ↔ _
  omega

abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

theorem coord1_0 (t : Fin cfg1.N) : (grid1.coords t 0).val = t.val / 625 := by
  have hN : t.val < 25000 := lt_of_lt_of_eq t.isLt (show cfg1.N = 25000 from N_1)
  show t.val / grid1.stride 0 % grid1.bound 0 = _
  rw [show grid1.stride 0 = 625 from by decide]
  show t.val / 625 % 40 = _
  omega

theorem index1_8 (t : Fin cfg1.N) : (cfg1.win 8).index t = ![t.val / 625, 0] := by
  have hN : t.val < 25000 := lt_of_lt_of_eq t.isLt (show cfg1.N = 25000 from N_1)
  show (![(BitVec.ofNat 32 (grid1.coords t 0).val).toNat, (0#32 : BitVec 32).toNat] : Fin 2 → Nat) = _
  rw [coord1_0 t]; exact index_outer _ (by omega)

theorem flush1_8 : ∀ t : Fin cfg1.N, (cfg1.win 8).flush t = true ↔ t.val % 625 = 624 := fun t => by
  have hN : t.val < 25000 := lt_of_lt_of_eq t.isLt (show cfg1.N = 25000 from N_1)
  refine (flush_of_key (cfg1.win 8) rfl (fun n => n / 625) (fun t t' => by rw [index1_8, index1_8]; exact pair_fst _ _) 25000 N_1 t).trans ?_
  show t.val + 1 = 25000 ∨ (t.val + 1 < 25000 ∧ (t.val + 1) / 625 ≠ t.val / 625) ↔ _
  omega

abbrev bodyAt1 (t : Fin cfg1.N) : Prog (TpuEff nD τ sig (Elt F) Λ₀ .tc) PUnit :=
  cc1__scatter_combine_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (Memref.whole cc1_scratch0) (Memref.isWhole_whole _)

theorem coord4_0 (t : Fin cfg4.N) : (grid4.coords t 0).val = t.val := by
  have hN : t.val < 40 := lt_of_lt_of_eq t.isLt (show cfg4.N = 40 from N_4)
  show t.val / grid4.stride 0 % grid4.bound 0 = _
  rw [show grid4.stride 0 = 1 from by decide, Nat.div_one]
  show t.val % 40 = _
  omega

theorem index4_3 (t : Fin cfg4.N) : (cfg4.win 3).index t = ![t.val, 0] := by
  have hN : t.val < 40 := lt_of_lt_of_eq t.isLt (show cfg4.N = 40 from N_4)
  show (![(BitVec.ofNat 32 (grid4.coords t 0).val).toNat, (0#32 : BitVec 32).toNat] : Fin 2 → Nat) = _
  rw [coord4_0 t]; exact index_outer _ (by omega)

theorem flush4_3 : ∀ t : Fin cfg4.N, (cfg4.win 3).flush t = true := fun t => by
  have hN : t.val < 40 := lt_of_lt_of_eq t.isLt (show cfg4.N = 40 from N_4)
  refine (flush_of_key (cfg4.win 3) rfl (fun n => n) (fun t t' => by rw [index4_3, index4_3]; exact pair_fst _ _) 40 N_4 t).2 ?_
  show t.val + 1 = 40 ∨ (t.val + 1 < 40 ∧ t.val + 1 ≠ t.val)
  omega

abbrev bodyAt4 (t : Fin cfg4.N) : Prog (TpuEff nD τ sig (Elt F) Λ₀ .tc) PUnit :=
  cc4__linear_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3))

-- regions 2 and 3 have the grids and index maps of regions 0 and 1
theorem coordA2 (t : Fin cfg2.N) : (grid2.coords t 0).val = t.val / 40 := coordA0 t
theorem flush2_3 : ∀ t : Fin cfg2.N, (cfg2.win 3).flush t = true ↔ t.val % 40 = 39 := flush0_3
theorem coord3_0 (t : Fin cfg3.N) : (grid3.coords t 0).val = t.val / 625 := coord1_0 t
theorem flush3_8 : ∀ t : Fin cfg3.N, (cfg3.win 8).flush t = true ↔ t.val % 625 = 624 := flush1_8

abbrev bodyAt2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev bodyAt3 (t : Fin cfg3.N) : Prog (TpuEff nD τ sig (Elt F) Λ₀ .tc) PUnit :=
  cc3__scatter_combine_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (Memref.whole cc3_scratch0) (Memref.isWhole_whole _)

end Cert.KernelIdeal.Hand

end
-- ==== Proof.KI.R0.lean ====
import proofs.«407445_j30339648979088_1_alg».proof.Proof.KI.B0
import proofs.«407445_j30339648979088_1_alg».proof.Proof.KI.Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coordB0 (t : Fin cfg0.N) : (grid0.coords t 1).val = t.val % 40 := by
  show t.val / grid0.stride 1 % grid0.bound 1 = _
  rw [show grid0.stride 1 = 1 from by decide, Nat.div_one]; rfl

theorem hcond0_0 (t : Fin cfg0.N) : cond0_0 (grid0.coords t) ↔ t.val % 40 = 0 := by
  rw [← coordB0 t]
  exact cond0_0_word ((grid0.coords t) 1)
theorem hcond0_1 (t : Fin cfg0.N) : cond0_1 (grid0.coords t) ↔ t.val % 40 = 39 := by
  rw [← coordB0 t]
  exact cond0_1_word ((grid0.coords t) 1)

theorem idle0_3_eq (i : grid0.Coords) : cfg0.idle 3 i = !(k0_cond2 i == 1#1) := rfl
theorem idleAt0_3 (i : grid0.Coords) (h : ¬cond0_1 i) : cfg0.idle 3 i = true := by
  rw [idle0_3_eq, beq_eq_false_iff_ne.mpr h]; rfl
theorem liveAt0_3 (i : grid0.Coords) (h : cond0_1 i) : cfg0.idle 3 i = false := by
  rw [idle0_3_eq, beq_iff_eq.mpr h]; rfl

theorem noFlush0_3 (t : Fin cfg0.N) (h : ¬t.val % 40 = 39) : (cfg0.win 3).flush t = false :=
  Bool.eq_false_iff.mpr fun hf => h ((flush0_3 t).mp hf)

abbrev scM0 : Memref sig .tc .vmem S2560x128 .f32 := Memref.whole cc0_scratch0

def acc0 (c : Dev nD) : (n : ℕ) → n < cfg0.N → FVec F S2560x128 .f32
  | 0, hn => k0_pay2 (iblk0 V c 0 ⟨0, hn⟩) (iblk0 V c 1 ⟨0, hn⟩) k0_pay1 (iblk0 V c 2 ⟨0, hn⟩)
  | n + 1, hn =>
    if (n + 1) % 40 = 0 then k0_pay2 (iblk0 V c 0 ⟨n + 1, hn⟩) (iblk0 V c 1 ⟨n + 1, hn⟩) k0_pay1 (iblk0 V c 2 ⟨n + 1, hn⟩)
    else k0_pay2 (iblk0 V c 0 ⟨n + 1, hn⟩) (iblk0 V c 1 ⟨n + 1, hn⟩) (acc0 c n (Nat.lt_of_succ_lt hn)) (iblk0 V c 2 ⟨n + 1, hn⟩)

theorem acc0_first (c : Dev nD) (t : Fin cfg0.N) (h : t.val % 40 = 0) :
    acc0 V c t.val t.isLt = k0_pay2 (iblk0 V c 0 t) (iblk0 V c 1 t) k0_pay1 (iblk0 V c 2 t) := by
  obtain ⟨n, hn⟩ := t
  cases n with
  | zero => rfl
  | succ n => exact (if_pos h).trans rfl

theorem acc0_next (c : Dev nD) (t : Fin cfg0.N) (h : ¬ t.val % 40 = 0) :
    acc0 V c t.val t.isLt = k0_pay2 (iblk0 V c 0 t) (iblk0 V c 1 t) (acc0 V c (t.val - 1) (by omega)) (iblk0 V c 2 t) := by
  obtain ⟨n, hn⟩ := t
  cases n with
  | zero => exact absurd (Nat.zero_mod _) h
  | succ n => exact (if_neg h).trans rfl

def inv0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

theorem PhiA0_eq (c : Dev nD) : (Pipeline.ΦA spec0 c : sProp 𝕄) = inv0 c iprop(∃ d, owns c scM0 fullShare d) := by
  unfold Pipeline.ΦA inv0; rw [scopedRest0_split]; simp only [scM0, owns_whole]; rfl

def Phi0 (c : Dev nD) : (n : ℕ) → n ≤ cfg0.N → sProp 𝕄
  | 0, _ => Pipeline.ΦA spec0 c
  | n + 1, hn => inv0 c (owns c scM0 fullShare (acc0 V c n hn))

theorem Phi0_pos (c : Dev nD) (n : ℕ) (h : n ≤ cfg0.N) (hz : n ≠ 0) :
    Phi0 V c n h = inv0 c (owns c scM0 fullShare (acc0 V c (n - 1) (by omega))) := by
  cases n with
  | zero => exact absurd rfl hz
  | succ n => rfl

theorem Phi0_le (c : Dev nD) (n : ℕ) (h : n ≤ cfg0.N) : Phi0 V c n h ⊢ Pipeline.ΦA spec0 c := by
  cases n with
  | zero => exact .rfl
  | succ n =>
    rw [PhiA0_eq]; show inv0 c _ ⊢ _; unfold inv0
    iintro ⟨⟨HS, HR⟩, Hg⟩
    iframe HR Hg
    iexists _; iexact HS

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val t.isLt) := by dsimp only [dat0]

theorem hin0 (c : Dev nD) : Pipeline.ΦA spec0 c ⊢ (dat0 V c).Φ 0 := .rfl

theorem hout0 (c : Dev nD) : (dat0 V c).Φ (Fin.last cfg0.N) ⊢ Pipeline.ΦA spec0 c := Phi0_le V c cfg0.N le_rfl

theorem before0 (c : Dev nD) (t : Fin cfg0.N) : ∀ w : Fin 4, w ≠ 3 → ∀ d, (dat0 V c).before w t d = (dat0 V c).after w t := by
  intro w; fin_cases w <;> first
    | exact fun h => absurd rfl h
    | exact fun _ d => (dat0 V c).before_in_eq_fetched _ rfl (fun _ => rfl) (fun _ _ _ => rfl) (fun _ => rfl) t d

abbrev ms0 (t : Fin cfg0.N) (w : Fin cfg0.W) := (cfg0.win w).stage (cfg0.slots t w)
theorem hs0 (t : Fin cfg0.N) (w : Fin cfg0.W) : (ms0 t w).IsWhole := stage_whole0 w _

abbrev pre0 (c : Dev nD) (t : Fin cfg0.N) (w : Fin cfg0.W) : sProp 𝕄 := iprop(∃ d, owns c (ms0 t w) fullShare ((dat0 V c).before w t d))
abbrev post0 (c : Dev nD) (t : Fin cfg0.N) (w : Fin cfg0.W) : sProp 𝕄 := owns c (ms0 t w) fullShare ((dat0 V c).after w t)

def bodyPre0 (c : Dev nD) (t : Fin cfg0.N) : sProp 𝕄 :=
  iprop((dat0 V c).Φ t.castSucc ∗ (dat0 V c).owesAt () t.castSucc ∗ pre0 V c t 0 ∗ pre0 V c t 1 ∗ pre0 V c t 2 ∗ pre0 V c t 3)

def bodyPost0 (c : Dev nD) (t : Fin cfg0.N) : sProp 𝕄 :=
  iprop(inv0 c (owns c scM0 fullShare (acc0 V c t.val t.isLt)) ∗ (dat0 V c).owesAt () t.castSucc ∗ post0 V c t 0 ∗ post0 V c t 1
    ∗ post0 V c t 2 ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  have hb := before0 V c t
  unfold bodyPre0 bodyPost0 bodyAt0 pre0 post0
  simp only [hb 0 (by decide), hb 1 (by decide), hb 2 (by decide)]
  by_cases h0 : t.val % 40 = 0
  · have h1 : ¬t.val % 40 = 39 := by omega
    have hc1 : ¬cond0_1 (grid0.coords t) := fun h => h1 ((hcond0_1 t).mp h)
    rw [Dat.leavesExact_idle (dat0 V c) 3 t (idleAt0_3 _ hc1) (noFlush0_3 t h1), acc0_first V c t h0]
    refine (sep_mono_left (Phi0_le V c _ _)).trans ?_
    rw [PhiA0_eq]; unfold inv0
    iintro ⟨⟨⟨⟨%d, HS⟩, HR⟩, Hg⟩, Ho, ⟨%d0, H0⟩, ⟨%d1, H1⟩, ⟨%d2, H2⟩, H3⟩
    iapply run0_AB c (grid0.coords t) _ (hs0 t 0) _ (hs0 t 1) _ (hs0 t 2) _ (hs0 t 3) scM0 (Memref.isWhole_whole _) hc1
      ((dat0 V c).after 0 t) ((dat0 V c).after 1 t) ((dat0 V c).after 2 t) d Set.univ _
    rw [if_pos ((hcond0_0 t).mpr h0)]
    iframe H0 H1 H2 HS
    iintro ⟨H0, H1, H2, HS⟩
    iframe
    iexact HS
  · have hc0 : ¬cond0_0 (grid0.coords t) := fun h => h0 ((hcond0_0 t).mp h)
    rw [show (dat0 V c).Φ t.castSucc = Phi0 V c t.val (Nat.le_of_lt t.isLt) from rfl,
      Phi0_pos V c _ _ fun e => h0 (by rw [e]), acc0_next V c t h0]
    unfold inv0
    by_cases h1 : t.val % 40 = 39
    · have hc1 : cond0_1 (grid0.coords t) := (hcond0_1 t).mpr h1
      rw [show (dat0 V c).leavesExact 3 t = owns c (ms0 t 3) fullShare ((dat0 V c).after 3 t) from by
        unfold Dat.leavesExact; rw [liveAt0_3 _ hc1], after0_3, acc0_next V c t h0]
      iintro ⟨⟨⟨HS, HR⟩, Hg⟩, Ho, ⟨%d0, H0⟩, ⟨%d1, H1⟩, ⟨%d2, H2⟩, ⟨%d3, H3⟩⟩
      iapply run0_C c (grid0.coords t) _ (hs0 t 0) _ (hs0 t 1) _ (hs0 t 2) _ (hs0 t 3) scM0 (Memref.isWhole_whole _) hc0 hc1
        ((dat0 V c).after 0 t) ((dat0 V c).after 1 t) ((dat0 V c).after 2 t) ((dat0 V c).before 3 t d3)
        (acc0 V c (t.val - 1) (by omega)) Set.univ _
      iframe H0 H1 H2 H3 HS
      iintro ⟨H0, H1, H2, H3, HS⟩
      iframe
      isplitl [HS]; · iexact HS
      iexact H3
    · have hc1 : ¬cond0_1 (grid0.coords t) := fun h => h1 ((hcond0_1 t).mp h)
      rw [Dat.leavesExact_idle (dat0 V c) 3 t (idleAt0_3 _ hc1) (noFlush0_3 t h1)]
      iintro ⟨⟨⟨HS, HR⟩, Hg⟩, Ho, ⟨%d0, H0⟩, ⟨%d1, H1⟩, ⟨%d2, H2⟩, H3⟩
      iapply run0_AB c (grid0.coords t) _ (hs0 t 0) _ (hs0 t 1) _ (hs0 t 2) _ (hs0 t 3) scM0 (Memref.isWhole_whole _) hc1
        ((dat0 V c).after 0 t) ((dat0 V c).after 1 t) ((dat0 V c).after 2 t) (acc0 V c (t.val - 1) (by omega)) Set.univ _
      rw [if_neg hc0]
      iframe H0 H1 H2 HS
      iintro ⟨H0, H1, H2, HS⟩
      iframe
      iexact HS

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.B1.lean ====
import proofs.«407445_j30339648979088_1_alg».proof.Proof.KI.Own
import proofs.«407445_j30339648979088_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem cond1_0_word : ∀ v : Fin 625,
    (Scalar.cmpi .ne (Scalar.extui (Scalar.cmpi .eq (BitVec.ofNat 32 v.val) 0#32)) 0#32) = 1#1 ↔ v.val = 0 := by
  decide +kernel
theorem cond1_1_word : ∀ v : Fin 625,
    (Scalar.cmpi .ne (Scalar.extui (Scalar.cmpi .eq (BitVec.ofNat 32 v.val) 624#32)) 0#32) = 1#1 ↔ v.val = 624 := by
  decide +kernel

set_option maxHeartbeats 1000000 in
theorem run1_AB (c : Dev nD) (i : grid1.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x1 .f32) (harg5 : arg5.IsWhole)
    (arg6 : Memref sig .tc .vmem S2560x128 .bf16) (harg6 : arg6.IsWhole) (arg7 : Memref sig .tc .vmem S128x128 .bf16) (harg7 : arg7.IsWhole)
    (arg8 : Memref sig .tc .vmem S128x128 .bf16) (harg8 : arg8.IsWhole) (arg9 : Memref sig .tc .vmem S1x128 .f32) (harg9 : arg9.IsWhole)
    (arg10 : Memref sig .tc .vmem S2560x128 .bf16) (harg10 : arg10.IsWhole) (arg11 : Memref sig .tc .vmem S2560x128 .f32) (harg11 : arg11.IsWhole)
    (hc1 : ¬cond1_1 i)
    (x0 : Vec F S2560x1 .i32) (x1 : Vec F S1x2560 .i32) (x2 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg11 fullShare xs
        ∗ (iprop(owns c arg2 fullShare x0 ∗ owns c arg3 fullShare x1 ∗ owns c arg4 fullShare x2
            ∗ owns c arg11 fullShare (k1_pay2 x0 x1 (if cond1_0 i then k1_pay1 else xs) x2)) -∗ K ⟨⟩))
      ⊢ wp frame (wpE (defs₀ (F := F)) Variants.none c none) E
          (cc1__scatter_combine_kernel i arg2 harg2 arg3 harg3 arg4 harg4 arg5 harg5 arg6 harg6 arg7 harg7 arg8 harg8 arg9 harg9 arg10 harg10 arg11 harg11) K := by
  rw [owns_unread harg2 x0, owns_unread harg3 x1, owns_unread harg4 x2, owns_unread harg11 xs]
  simp only [cc1__scatter_combine_kernel_eq_skeleton]; unfold cc1__scatter_combine_kernel_skel
  iintro ⟨H0, H1, H2, HS, Hk⟩
  by_cases hc0 : cond1_0 i
  all_goals
    first | rw [if_pos hc0] | rw [if_neg hc0]
    sl_exec (disch := first | exact hc0 | exact hc1)
    sl_step
    iapply Hk
    iframe H0 H1 H2
    unfold owns; iexists _; isplitr
    swap; · iexact HS
    ipureintro
  · sl_unfold_words
    rw [read_writes_unit0 _ _ off2_zero, View.readCov_unit_zero (S := S2560x128) _ off2_zero, readAt_unit0 arg2 harg2 off2_zero,
      readAt_unit0 arg3 harg3 off2_zero, readAt_unit0 arg4 harg4 off2_zero]
  · rw [read_writes_unit0 _ _ off2_zero, readAt_unit0 arg2 harg2 off2_zero, readAt_unit0 arg3 harg3 off2_zero,
      readAt_unit0 arg4 harg4 off2_zero, readAt_unit0 arg11 harg11 off2_zero]

set_option maxHeartbeats 4000000 in
theorem run1_C (c : Dev nD) (i : grid1.Coords)
    (arg2 : Memref sig .tc .vmem S2560x1 .i32) (harg2 : arg2.IsWhole) (arg3 : Memref sig .tc .vmem S1x2560 .i32) (harg3 : arg3.IsWhole)
    (arg4 : Memref sig .tc .vmem S2560x128 .bf16) (harg4 : arg4.IsWhole) (arg5 : Memref sig .tc .vmem S2560x1 .f32) (harg5 : arg5.IsWhole)
    (arg6 : Memref sig .tc .vmem S2560x128 .bf16) (harg6 : arg6.IsWhole) (arg7 : Memref sig .tc .vmem S128x128 .bf16) (harg7 : arg7.IsWhole)
    (arg8 : Memref sig .tc .vmem S128x128 .bf16) (harg8 : arg8.IsWhole) (arg9 : Memref sig .tc .vmem S1x128 .f32) (harg9 : arg9.IsWhole)
    (arg10 : Memref sig .tc .vmem S2560x128 .bf16) (harg10 : arg10.IsWhole) (arg11 : Memref sig .tc .vmem S2560x128 .f32) (harg11 : arg11.IsWhole)
    (hc0 : ¬cond1_0 i) (hc1 : cond1_1 i)
    (x0 : Vec F S2560x1 .i32) (x1 : Vec F S1x2560 .i32) (x2 : Vec F S2560x128 .bf16) (x3 : Vec F S2560x1 .f32)
    (x4 : Vec F S2560x128 .bf16) (x5 : Vec F S128x128 .bf16) (x6 : Vec F S128x128 .bf16) (x7 : Vec F S1x128 .f32)
    (x8 : Vec F S2560x128 .bf16) (xs : Vec F S2560x128 .f32)
    (E : Set ℕ) (K : PUnit → sProp 𝕄) :
    iprop(owns c arg2 fullShare x0 ∗ owns c arg3 fullShare x1 ∗ owns c arg4 fullShare x2 ∗ owns c arg5 fullShare x3
        ∗ owns c arg6 fullShare x4 ∗ owns c arg7 fullShare x5 ∗ owns c arg8 fullShare x6 ∗ owns c arg9 fullShare x7
        ∗ owns c arg10 fullShare x8 ∗ owns c arg11 fullShare xs
        ∗ (iprop(owns c arg2 fullShare x0 ∗ owns c arg3 fullShare x1 ∗ owns c arg4 fullShare x2 ∗ owns c arg5 fullShare x3
            ∗ owns c arg6 fullShare x4 ∗ owns c arg7 fullShare x5 ∗ owns c arg8 fullShare x6 ∗ owns c arg9 fullShare x7
            ∗ owns c arg10 fullShare (k1_pay3 (k1_pay2 x0 x1 xs x2) x3 x5 x4 x6 x7)
            ∗ owns c arg11 fullShare (k1_pay2 x0 x1 xs x2)) -∗ K ⟨⟩))
      ⊢ wp frame (wpE (defs₀ (F := F)) Variants.none c none) E
          (cc1__scatter_combine_kernel i arg2 harg2 arg3 harg3 arg4 harg4 arg5 harg5 arg6 harg6 arg7 harg7 arg8 harg8 arg9 harg9 arg10 harg10 arg11 harg11) K := by
  rw [owns_unread harg2 x0, owns_unread harg3 x1, owns_unread harg4 x2, owns_unread harg5 x3, owns_unread harg6 x4,
    owns_unread harg7 x5, owns_unread harg8 x6, owns_unread harg9 x7, owns_unread harg10 x8, owns_unread harg11 xs]
  simp only [cc1__scatter_combine_kernel_eq_skeleton]; unfold cc1__scatter_combine_kernel_skel
  iintro ⟨H0, H1, H2, H3, H4, H5, H6, H7, H8, HS, Hk⟩
  sl_exec (disch := first | exact hc0 | exact hc1)
  sl_step
  iapply Hk
  iframe H0 H1 H2 H3 H4 H5 H6 H7
  unfold owns
  isplitl [H8]
  · iexists _; isplitr
    swap; · iexact H8
    ipureintro
    sl_unfold_words
    rw [read_writes_unit0 _ _ off2_zero, View.readCov_unit_zero (S := S2560x128) _ off2_zero, readAt_unit0 arg2 harg2 off2_zero,
      readAt_unit0 arg3 harg3 off2_zero, readAt_unit0 arg11 harg11 off2_zero, readAt_unit0 arg4 harg4 off2_zero,
      readAt_unit0 arg5 harg5 off2_zero, readAt_unit0 arg7 harg7 off2_zero, readAt_unit0 arg6 harg6 off2_zero,
      readAt_unit0 arg8 harg8 off2_zero, readAt_unit0 arg9 harg9 off2_zero]
  iexists _; isplitr
  swap; · iexact HS
  ipureintro
  sl_unfold_words
  rw [read_writes_unit0 _ _ off2_zero, readAt_unit0 arg2 harg2 off2_zero, readAt_unit0 arg3 harg3 off2_zero,
    readAt_unit0 arg4 harg4 off2_zero, readAt_unit0 arg11 harg11 off2_zero]

end Cert.KernelIdeal.Hand

end
-- ==== Proof.KI.R1.lean ====
import proofs.«407445_j30339648979088_1_alg».proof.Proof.KI.B1
import proofs.«407445_j30339648979088_1_alg».proof.Proof.KI.Sched
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem coords1_1 (t : Fin cfg1.N) : ((grid1.coords t) 1).val = t.val % 625 := by
  show t.val / grid1.stride 1 % grid1.bound 1 = t.val % 625
  rw [show grid1.stride 1 = 1 from by decide, Nat.div_one]; rfl

theorem hcond1_0 (t : Fin cfg1.N) : cond1_0 (grid1.coords t) ↔ t.val % 625 = 0 := by
  rw [← coords1_1 t]
  exact cond1_0_word ((grid1.coords t) 1)
theorem hcond1_1 (t : Fin cfg1.N) : cond1_1 (grid1.coords t) ↔ t.val % 625 = 624 := by
  rw [← coords1_1 t]
  exact cond1_1_word ((grid1.coords t) 1)

theorem idle1_8_eq (i : grid1.Coords) : cfg1.idle 8 i = !(k1_cond2 i == 1#1) := rfl
theorem idleAt1_8 (i : grid1.Coords) (h : ¬cond1_1 i) : cfg1.idle 8 i = true := by
  rw [idle1_8_eq, beq_eq_false_iff_ne.mpr h]; rfl
theorem liveAt1_8 (i : grid1.Coords) (h : cond1_1 i) : cfg1.idle 8 i = false := by
  rw [idle1_8_eq, beq_iff_eq.mpr h]; rfl

theorem noFlush1_8 (t : Fin cfg1.N) (h : ¬t.val % 625 = 624) : (cfg1.win 8).flush t = false :=
  Bool.eq_false_iff.mpr fun hf => h ((flush1_8 t).mp hf)

abbrev scM1 : Memref sig .tc .vmem S2560x128 .f32 := Memref.whole cc1_scratch0

def acc1 (c : Dev nD) : (n : ℕ) → n < cfg1.N → FVec F S2560x128 .f32
  | 0, hn => k1_pay2 (iblk1 V c 0 ⟨0, hn⟩) (iblk1 V c 1 ⟨0, hn⟩) k1_pay1 (iblk1 V c 2 ⟨0, hn⟩)
  | n + 1, hn =>
    if (n + 1) % 625 = 0 then k1_pay2 (iblk1 V c 0 ⟨n + 1, hn⟩) (iblk1 V c 1 ⟨n + 1, hn⟩) k1_pay1 (iblk1 V c 2 ⟨n + 1, hn⟩)
    else k1_pay2 (iblk1 V c 0 ⟨n + 1, hn⟩) (iblk1 V c 1 ⟨n + 1, hn⟩) (acc1 c n (Nat.lt_of_succ_lt hn)) (iblk1 V c 2 ⟨n + 1, hn⟩)

theorem acc1_first (c : Dev nD) (t : Fin cfg1.N) (h : t.val % 625 = 0) :
    acc1 V c t.val t.isLt = k1_pay2 (iblk1 V c 0 t) (iblk1 V c 1 t) k1_pay1 (iblk1 V c 2 t) := by
  obtain ⟨n, hn⟩ := t
  cases n with
  | zero => rfl
  | succ n => exact (if_pos h).trans rfl

theorem acc1_next (c : Dev nD) (t : Fin cfg1.N) (h : ¬ t.val % 625 = 0) :
    acc1 V c t.val t.isLt = k1_pay2 (iblk1 V c 0 t) (iblk1 V c 1 t) (acc1 V c (t.val - 1) (by omega)) (iblk1 V c 2 t) := by
  obtain ⟨n, hn⟩ := t
  cases n with
  | zero => exact absurd (Nat.zero_mod _) h
  | succ n => exact (if_neg h).trans rfl

def inv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = inv1 c iprop(∃ d, owns c scM1 fullShare d) := by
  unfold Pipeline.ΦA inv1; rw [scopedRest1_split]; simp only [scM1, owns_whole]; rfl

def Phi1 (c : Dev nD) : (n : ℕ) → n ≤ cfg1.N → sProp 𝕄
  | 0, _ => Pipeline.ΦA spec1 c
  | n + 1, hn => inv1 c (owns c scM1 fullShare (acc1 V c n hn))

theorem Phi1_pos (c : Dev nD) (n : ℕ) (h : n ≤ cfg1.N) (hz : n ≠ 0) :
    Phi1 V c n h = inv1 c (owns c scM1 fullShare (acc1 V c (n - 1) (by omega))) := by
  cases n with
  | zero => exact absurd rfl hz
  | succ n => rfl

theorem Phi1_le (c : Dev nD) (n : ℕ) (h : n ≤ cfg1.N) : Phi1 V c n h ⊢ Pipeline.ΦA spec1 c := by
  cases n with
  | zero => exact .rfl
  | succ n =>
    rw [PhiA1_eq]; show inv1 c _ ⊢ _; unfold inv1
    iintro ⟨⟨HS, HR⟩, Hg⟩
    iframe HR Hg
    iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay3 (acc1 V c t.val t.isLt) (iblk1 V c 3 t) (iblk1 V c 5 t) (iblk1 V c 4 t) (iblk1 V c 6 t) (iblk1 V c 7 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) :
    (dat1 V c).after 8 t = k1_pay3 (acc1 V c t.val t.isLt) (iblk1 V c 3 t) (iblk1 V c 5 t) (iblk1 V c 4 t) (iblk1 V c 6 t) (iblk1 V c 7 t) := by
  dsimp only [dat1]

theorem hin1 (c : Dev nD) : Pipeline.ΦA spec1 c ⊢ (dat1 V c).Φ 0 := .rfl

theorem hout1 (c : Dev nD) : (dat1 V c).Φ (Fin.last cfg1.N) ⊢ Pipeline.ΦA spec1 c := Phi1_le V c cfg1.N le_rfl

theorem before1 (c : Dev nD) (t : Fin cfg1.N) : ∀ w : Fin 9, w ≠ 8 → ∀ d, (dat1 V c).before w t d = (dat1 V c).after w t := by
  intro w; fin_cases w <;> first
    | exact fun h => absurd rfl h
    | exact fun _ d => (dat1 V c).before_in_eq_fetched _ rfl (fun _ => rfl) (fun _ _ _ => rfl) (fun _ => rfl) t d

abbrev ms1 (t : Fin cfg1.N) (w : Fin cfg1.W) := (cfg1.win w).stage (cfg1.slots t w)
theorem hs1 (t : Fin cfg1.N) (w : Fin cfg1.W) : (ms1 t w).IsWhole := stage_whole1 w _

abbrev pre1 (c : Dev nD) (t : Fin cfg1.N) (w : Fin cfg1.W) : sProp 𝕄 := iprop(∃ d, owns c (ms1 t w) fullShare ((dat1 V c).before w t d))
abbrev post1 (c : Dev nD) (t : Fin cfg1.N) (w : Fin cfg1.W) : sProp 𝕄 := owns c (ms1 t w) fullShare ((dat1 V c).after w t)

def bodyPre1 (c : Dev nD) (t : Fin cfg1.N) : sProp 𝕄 :=
  iprop((dat1 V c).Φ t.castSucc ∗ (dat1 V c).owesAt () t.castSucc ∗ pre1 V c t 0 ∗ pre1 V c t 1 ∗ pre1 V c t 2 ∗ pre1 V c t 3
    ∗ pre1 V c t 4 ∗ pre1 V c t 5 ∗ pre1 V c t 6 ∗ pre1 V c t 7 ∗ pre1 V c t 8)

def bodyPost1 (c : Dev nD) (t : Fin cfg1.N) : sProp 𝕄 :=
  iprop(inv1 c (owns c scM1 fullShare (acc1 V c t.val t.isLt)) ∗ (dat1 V c).owesAt () t.castSucc ∗ post1 V c t 0 ∗ post1 V c t 1
    ∗ post1 V c t 2 ∗ post1 V c t 3 ∗ post1 V c t 4 ∗ post1 V c t 5 ∗ post1 V c t 6 ∗ post1 V c t 7 ∗ (dat1 V c).leavesExact 8 t)

theorem sound_body1 (c : Dev nD) (t : Fin cfg1.N) :
    bodyPre1 V c t ⊢ wp frame (wpE (defs₀ (F := F)) Variants.none c none) Set.univ (bodyAt1 t) (fun _ => bodyPost1 V c t) := by
  have hb := before1 V c t
  unfold bodyPre1 bodyPost1 bodyAt1 pre1 post1
  simp only [hb 0 (by decide), hb 1 (by decide), hb 2 (by decide), hb 3 (by decide), hb 4 (by decide), hb 5 (by decide),
    hb 6 (by decide), hb 7 (by decide)]
  by_cases h0 : t.val % 625 = 0
  · have h1 : ¬t.val % 625 = 624 := by omega
    have hc1 : ¬cond1_1 (grid1.coords t) := fun h => h1 ((hcond1_1 t).mp h)
    rw [Dat.leavesExact_idle (dat1 V c) 8 t (idleAt1_8 _ hc1) (noFlush1_8 t h1), acc1_first V c t h0]
    refine (sep_mono_left (Phi1_le V c _ _)).trans ?_
    rw [PhiA1_eq]; unfold inv1
    iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply run1_AB c (grid1.coords t) _ (hs1 t 0) _ (hs1 t 1) _ (hs1 t 2) _ (hs1 t 3) _ (hs1 t 4) _ (hs1 t 5) _ (hs1 t 6) _ (hs1 t 7)
      _ (hs1 t 8) scM1 (Memref.isWhole_whole _) hc1 ((dat1 V c).after 0 t) ((dat1 V c).after 1 t) ((dat1 V c).after 2 t) d Set.univ _
    rw [if_pos ((hcond1_0 t).mpr h0)]
    iframe H0 H1 H2 HS
    iintro ⟨H0, H1, H2, HS⟩
    iframe
    iexact HS
  · have hc0 : ¬cond1_0 (grid1.coords t) := fun h => h0 ((hcond1_0 t).mp h)
    rw [show (dat1 V c).Φ t.castSucc = Phi1 V c t.val (Nat.le_of_lt t.isLt) from rfl,
      Phi1_pos V c _ _ fun e => h0 (by rw [e]), acc1_next V c t h0]
    unfold inv1
    by_cases h1 : t.val % 625 = 624
    · have hc1 : cond1_1 (grid1.coords t) := (hcond1_1 t).mpr h1
      rw [show (dat1 V c).leavesExact 8 t = owns c (ms1 t 8) fullShare ((dat1 V c).after 8 t) from by
        unfold Dat.leavesExact; rw [liveAt1_8 _ hc1], after1_8, acc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply run1_C c (grid1.coords t) _ (hs1 t 0) _ (hs1 t 1) _ (hs1 t 2) _ (hs1 t 3) _ (hs1 t 4) _ (hs1 t 5) _ (hs1 t 6) _ (hs1 t 7)
        _ (hs1 t 8) scM1 (Memref.isWhole_whole _) hc0 hc1 ((dat1 V c).after 0 t) ((dat1 V c).after 1 t) ((dat1 V c).after 2 t)
        ((dat1 V c).after 3 t) ((dat1 V c).after 4 t) ((dat1 V c).after 5 t) ((dat1 V c).after 6 t) ((dat1 V c).after 7 t)
        ((dat1 V c).before 8 t d8) (acc1 V c (t.val - 1) (by omega)) Set.univ _
      iframe H0 H1 H2 H3 H4 H5 H6 H7 H8 HS
      iintro ⟨H0, H1, H2, H3, H4, H5, H6, H7, H8, HS⟩
      iframe
      isplitl [HS]; · iexact HS
      iexact H8
    · have hc1 : ¬cond1_1 (grid1.coords t) := fun h => h1 ((hcond1_1 t).mp h)
      rw [Dat.leavesExact_idle (dat1 V c) 8 t (idleAt1_8 _ hc1) (noFlush1_8 t h1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply run1_AB c (grid1.coords t) _ (hs1 t 0) _ (hs1 t 1) _ (hs1 t 2) _ (hs1 t 3) _ (hs1 t 4) _ (hs1 t 5) _ (hs1 t 6) _ (hs1 t 7)
        _ (hs1 t 8) scM1 (Memref.isWhole_whole _) hc1 ((dat1 V c).after 0 t) ((dat1 V c).after 1 t) ((dat1 V c).after 2 t)
        (acc1 V c (t.val - 1) (by omega)) Set.univ _
      rw [if_neg hc0]
      iframe H0 H1 H2 HS
      iintro ⟨H0, H1, H2, HS⟩
      iframe
      iexact HS

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«407445_j30339648979088_1_alg».proof.Proof.KI.B0
import proofs.«407445_j30339648979088_1_alg».proof.Proof.KI.Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem coordB2 (t : Fin cfg2.N) : (grid2.coords t 1).val = t.val % 40 := by
  show t.val / grid2.stride 1 % grid2.bound 1 = _
  rw [show grid2.stride 1 = 1 from by decide, Nat.div_one]; rfl

theorem hcond2_0 (t : Fin cfg2.N) : cond0_0 (grid2.coords t) ↔ t.val % 40 = 0 := by
  rw [← coordB2 t]
  exact cond0_0_word ((grid2.coords t) 1)
theorem hcond2_1 (t : Fin cfg2.N) : cond0_1 (grid2.coords t) ↔ t.val % 40 = 39 := by
  rw [← coordB2 t]
  exact cond0_1_word ((grid2.coords t) 1)

theorem idle2_3_eq (i : grid2.Coords) : cfg2.idle 3 i = !(k0_cond2 i == 1#1) := rfl
theorem idleAt2_3 (i : grid2.Coords) (h : ¬cond0_1 i) : cfg2.idle 3 i = true := by
  rw [idle2_3_eq, beq_eq_false_iff_ne.mpr h]; rfl
theorem liveAt2_3 (i : grid2.Coords) (h : cond0_1 i) : cfg2.idle 3 i = false := by
  rw [idle2_3_eq, beq_iff_eq.mpr h]; rfl

theorem noFlush2_3 (t : Fin cfg2.N) (h : ¬t.val % 40 = 39) : (cfg2.win 3).flush t = false :=
  Bool.eq_false_iff.mpr fun hf => h ((flush2_3 t).mp hf)

abbrev scM2 : Memref sig .tc .vmem S2560x128 .f32 := Memref.whole cc2_scratch0

def acc2 (c : Dev nD) : (n : ℕ) → n < cfg2.N → FVec F S2560x128 .f32
  | 0, hn => k0_pay2 (iblk2 V c 0 ⟨0, hn⟩) (iblk2 V c 1 ⟨0, hn⟩) k0_pay1 (iblk2 V c 2 ⟨0, hn⟩)
  | n + 1, hn =>
    if (n + 1) % 40 = 0 then k0_pay2 (iblk2 V c 0 ⟨n + 1, hn⟩) (iblk2 V c 1 ⟨n + 1, hn⟩) k0_pay1 (iblk2 V c 2 ⟨n + 1, hn⟩)
    else k0_pay2 (iblk2 V c 0 ⟨n + 1, hn⟩) (iblk2 V c 1 ⟨n + 1, hn⟩) (acc2 c n (Nat.lt_of_succ_lt hn)) (iblk2 V c 2 ⟨n + 1, hn⟩)

theorem acc2_first (c : Dev nD) (t : Fin cfg2.N) (h : t.val % 40 = 0) :
    acc2 V c t.val t.isLt = k0_pay2 (iblk2 V c 0 t) (iblk2 V c 1 t) k0_pay1 (iblk2 V c 2 t) := by
  obtain ⟨n, hn⟩ := t
  cases n with
  | zero => rfl
  | succ n => exact (if_pos h).trans rfl

theorem acc2_next (c : Dev nD) (t : Fin cfg2.N) (h : ¬ t.val % 40 = 0) :
    acc2 V c t.val t.isLt = k0_pay2 (iblk2 V c 0 t) (iblk2 V c 1 t) (acc2 V c (t.val - 1) (by omega)) (iblk2 V c 2 t) := by
  obtain ⟨n, hn⟩ := t
  cases n with
  | zero => exact absurd (Nat.zero_mod _) h
  | succ n => exact (if_neg h).trans rfl

def inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns c scM2 fullShare d) := by
  unfold Pipeline.ΦA inv2; rw [scopedRest2_split]; simp only [scM2, owns_whole]; rfl

def Phi2 (c : Dev nD) : (n : ℕ) → n ≤ cfg2.N → sProp 𝕄
  | 0, _ => Pipeline.ΦA spec2 c
  | n + 1, hn => inv2 c (owns c scM2 fullShare (acc2 V c n hn))

theorem Phi2_pos (c : Dev nD) (n : ℕ) (h : n ≤ cfg2.N) (hz : n ≠ 0) :
    Phi2 V c n h = inv2 c (owns c scM2 fullShare (acc2 V c (n - 1) (by omega))) := by
  cases n with
  | zero => exact absurd rfl hz
  | succ n => rfl

theorem Phi2_le (c : Dev nD) (n : ℕ) (h : n ≤ cfg2.N) : Phi2 V c n h ⊢ Pipeline.ΦA spec2 c := by
  cases n with
  | zero => exact .rfl
  | succ n =>
    rw [PhiA2_eq]; show inv2 c _ ⊢ _; unfold inv2
    iintro ⟨⟨HS, HR⟩, Hg⟩
    iframe HR Hg
    iexists _; iexact HS

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k0_pay3 (acc2 V c t.val t.isLt) := by dsimp only [dat2]

theorem hin2 (c : Dev nD) : Pipeline.ΦA spec2 c ⊢ (dat2 V c).Φ 0 := .rfl

theorem hout2 (c : Dev nD) : (dat2 V c).Φ (Fin.last cfg2.N) ⊢ Pipeline.ΦA spec2 c := Phi2_le V c cfg2.N le_rfl

theorem before2 (c : Dev nD) (t : Fin cfg2.N) : ∀ w : Fin 4, w ≠ 3 → ∀ d, (dat2 V c).before w t d = (dat2 V c).after w t := by
  intro w; fin_cases w <;> first
    | exact fun h => absurd rfl h
    | exact fun _ d => (dat2 V c).before_in_eq_fetched _ rfl (fun _ => rfl) (fun _ _ _ => rfl) (fun _ => rfl) t d

abbrev ms2 (t : Fin cfg2.N) (w : Fin cfg2.W) := (cfg2.win w).stage (cfg2.slots t w)
theorem hs2 (t : Fin cfg2.N) (w : Fin cfg2.W) : (ms2 t w).IsWhole := stage_whole2 w _

abbrev pre2 (c : Dev nD) (t : Fin cfg2.N) (w : Fin cfg2.W) : sProp 𝕄 := iprop(∃ d, owns c (ms2 t w) fullShare ((dat2 V c).before w t d))
abbrev post2 (c : Dev nD) (t : Fin cfg2.N) (w : Fin cfg2.W) : sProp 𝕄 := owns c (ms2 t w) fullShare ((dat2 V c).after w t)

def bodyPre2 (c : Dev nD) (t : Fin cfg2.N) : sProp 𝕄 :=
  iprop((dat2 V c).Φ t.castSucc ∗ (dat2 V c).owesAt () t.castSucc ∗ pre2 V c t 0 ∗ pre2 V c t 1 ∗ pre2 V c t 2 ∗ pre2 V c t 3)

def bodyPost2 (c : Dev nD) (t : Fin cfg2.N) : sProp 𝕄 :=
  iprop(inv2 c (owns c scM2 fullShare (acc2 V c t.val t.isLt)) ∗ (dat2 V c).owesAt () t.castSucc ∗ post2 V c t 0 ∗ post2 V c t 1
    ∗ post2 V c t 2 ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  have hb := before2 V c t
  unfold bodyPre2 bodyPost2 bodyAt2 pre2 post2
  simp only [hb 0 (by decide), hb 1 (by decide), hb 2 (by decide)]
  by_cases h0 : t.val % 40 = 0
  · have h1 : ¬t.val % 40 = 39 := by omega
    have hc1 : ¬cond0_1 (grid2.coords t) := fun h => h1 ((hcond2_1 t).mp h)
    rw [Dat.leavesExact_idle (dat2 V c) 3 t (idleAt2_3 _ hc1) (noFlush2_3 t h1), acc2_first V c t h0]
    refine (sep_mono_left (Phi2_le V c _ _)).trans ?_
    rw [PhiA2_eq]; unfold inv2
    iintro ⟨⟨⟨⟨%d, HS⟩, HR⟩, Hg⟩, Ho, ⟨%d0, H0⟩, ⟨%d1, H1⟩, ⟨%d2, H2⟩, H3⟩
    iapply run0_AB c (grid2.coords t) _ (hs2 t 0) _ (hs2 t 1) _ (hs2 t 2) _ (hs2 t 3) scM2 (Memref.isWhole_whole _) hc1
      ((dat2 V c).after 0 t) ((dat2 V c).after 1 t) ((dat2 V c).after 2 t) d Set.univ _
    rw [if_pos ((hcond2_0 t).mpr h0)]
    iframe H0 H1 H2 HS
    iintro ⟨H0, H1, H2, HS⟩
    iframe
    iexact HS
  · have hc0 : ¬cond0_0 (grid2.coords t) := fun h => h0 ((hcond2_0 t).mp h)
    rw [show (dat2 V c).Φ t.castSucc = Phi2 V c t.val (Nat.le_of_lt t.isLt) from rfl,
      Phi2_pos V c _ _ fun e => h0 (by rw [e]), acc2_next V c t h0]
    unfold inv2
    by_cases h1 : t.val % 40 = 39
    · have hc1 : cond0_1 (grid2.coords t) := (hcond2_1 t).mpr h1
      rw [show (dat2 V c).leavesExact 3 t = owns c (ms2 t 3) fullShare ((dat2 V c).after 3 t) from by
        unfold Dat.leavesExact; rw [liveAt2_3 _ hc1], after2_3, acc2_next V c t h0]
      iintro ⟨⟨⟨HS, HR⟩, Hg⟩, Ho, ⟨%d0, H0⟩, ⟨%d1, H1⟩, ⟨%d2, H2⟩, ⟨%d3, H3⟩⟩
      iapply run0_C c (grid2.coords t) _ (hs2 t 0) _ (hs2 t 1) _ (hs2 t 2) _ (hs2 t 3) scM2 (Memref.isWhole_whole _) hc0 hc1
        ((dat2 V c).after 0 t) ((dat2 V c).after 1 t) ((dat2 V c).after 2 t) ((dat2 V c).before 3 t d3)
        (acc2 V c (t.val - 1) (by omega)) Set.univ _
      iframe H0 H1 H2 H3 HS
      iintro ⟨H0, H1, H2, H3, HS⟩
      iframe
      isplitl [HS]; · iexact HS
      iexact H3
    · have hc1 : ¬cond0_1 (grid2.coords t) := fun h => h1 ((hcond2_1 t).mp h)
      rw [Dat.leavesExact_idle (dat2 V c) 3 t (idleAt2_3 _ hc1) (noFlush2_3 t h1)]
      iintro ⟨⟨⟨HS, HR⟩, Hg⟩, Ho, ⟨%d0, H0⟩, ⟨%d1, H1⟩, ⟨%d2, H2⟩, H3⟩
      iapply run0_AB c (grid2.coords t) _ (hs2 t 0) _ (hs2 t 1) _ (hs2 t 2) _ (hs2 t 3) scM2 (Memref.isWhole_whole _) hc1
        ((dat2 V c).after 0 t) ((dat2 V c).after 1 t) ((dat2 V c).after 2 t) (acc2 V c (t.val - 1) (by omega)) Set.univ _
      rw [if_neg hc0]
      iframe H0 H1 H2 HS
      iintro ⟨H0, H1, H2, HS⟩
      iframe
      iexact HS

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«407445_j30339648979088_1_alg».proof.Proof.KI.B1
import proofs.«407445_j30339648979088_1_alg».proof.Proof.KI.Sched
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem coords3_1 (t : Fin cfg3.N) : ((grid3.coords t) 1).val = t.val % 625 := by
  show t.val / grid3.stride 1 % grid3.bound 1 = t.val % 625
  rw [show grid3.stride 1 = 1 from by decide, Nat.div_one]; rfl

theorem hcond3_0 (t : Fin cfg3.N) : cond1_0 (grid3.coords t) ↔ t.val % 625 = 0 := by
  rw [← coords3_1 t]
  exact cond1_0_word ((grid3.coords t) 1)
theorem hcond3_1 (t : Fin cfg3.N) : cond1_1 (grid3.coords t) ↔ t.val % 625 = 624 := by
  rw [← coords3_1 t]
  exact cond1_1_word ((grid3.coords t) 1)

theorem idle3_8_eq (i : grid3.Coords) : cfg3.idle 8 i = !(k1_cond2 i == 1#1) := rfl
theorem idleAt3_8 (i : grid3.Coords) (h : ¬cond1_1 i) : cfg3.idle 8 i = true := by
  rw [idle3_8_eq, beq_eq_false_iff_ne.mpr h]; rfl
theorem liveAt3_8 (i : grid3.Coords) (h : cond1_1 i) : cfg3.idle 8 i = false := by
  rw [idle3_8_eq, beq_iff_eq.mpr h]; rfl

theorem noFlush3_8 (t : Fin cfg3.N) (h : ¬t.val % 625 = 624) : (cfg3.win 8).flush t = false :=
  Bool.eq_false_iff.mpr fun hf => h ((flush3_8 t).mp hf)

abbrev scM3 : Memref sig .tc .vmem S2560x128 .f32 := Memref.whole cc3_scratch0

def acc3 (c : Dev nD) : (n : ℕ) → n < cfg3.N → FVec F S2560x128 .f32
  | 0, hn => k1_pay2 (iblk3 V c 0 ⟨0, hn⟩) (iblk3 V c 1 ⟨0, hn⟩) k1_pay1 (iblk3 V c 2 ⟨0, hn⟩)
  | n + 1, hn =>
    if (n + 1) % 625 = 0 then k1_pay2 (iblk3 V c 0 ⟨n + 1, hn⟩) (iblk3 V c 1 ⟨n + 1, hn⟩) k1_pay1 (iblk3 V c 2 ⟨n + 1, hn⟩)
    else k1_pay2 (iblk3 V c 0 ⟨n + 1, hn⟩) (iblk3 V c 1 ⟨n + 1, hn⟩) (acc3 c n (Nat.lt_of_succ_lt hn)) (iblk3 V c 2 ⟨n + 1, hn⟩)

theorem acc3_first (c : Dev nD) (t : Fin cfg3.N) (h : t.val % 625 = 0) :
    acc3 V c t.val t.isLt = k1_pay2 (iblk3 V c 0 t) (iblk3 V c 1 t) k1_pay1 (iblk3 V c 2 t) := by
  obtain ⟨n, hn⟩ := t
  cases n with
  | zero => rfl
  | succ n => exact (if_pos h).trans rfl

theorem acc3_next (c : Dev nD) (t : Fin cfg3.N) (h : ¬ t.val % 625 = 0) :
    acc3 V c t.val t.isLt = k1_pay2 (iblk3 V c 0 t) (iblk3 V c 1 t) (acc3 V c (t.val - 1) (by omega)) (iblk3 V c 2 t) := by
  obtain ⟨n, hn⟩ := t
  cases n with
  | zero => exact absurd (Nat.zero_mod _) h
  | succ n => exact (if_neg h).trans rfl

def inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = inv3 c iprop(∃ d, owns c scM3 fullShare d) := by
  unfold Pipeline.ΦA inv3; rw [scopedRest3_split]; simp only [scM3, owns_whole]; rfl

def Phi3 (c : Dev nD) : (n : ℕ) → n ≤ cfg3.N → sProp 𝕄
  | 0, _ => Pipeline.ΦA spec3 c
  | n + 1, hn => inv3 c (owns c scM3 fullShare (acc3 V c n hn))

theorem Phi3_pos (c : Dev nD) (n : ℕ) (h : n ≤ cfg3.N) (hz : n ≠ 0) :
    Phi3 V c n h = inv3 c (owns c scM3 fullShare (acc3 V c (n - 1) (by omega))) := by
  cases n with
  | zero => exact absurd rfl hz
  | succ n => rfl

theorem Phi3_le (c : Dev nD) (n : ℕ) (h : n ≤ cfg3.N) : Phi3 V c n h ⊢ Pipeline.ΦA spec3 c := by
  cases n with
  | zero => exact .rfl
  | succ n =>
    rw [PhiA3_eq]; show inv3 c _ ⊢ _; unfold inv3
    iintro ⟨⟨HS, HR⟩, Hg⟩
    iframe HR Hg
    iexists _; iexact HS

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => k1_pay3 (acc3 V c t.val t.isLt) (iblk3 V c 3 t) (iblk3 V c 5 t) (iblk3 V c 4 t) (iblk3 V c 6 t) (iblk3 V c 7 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) :
    (dat3 V c).after 8 t = k1_pay3 (acc3 V c t.val t.isLt) (iblk3 V c 3 t) (iblk3 V c 5 t) (iblk3 V c 4 t) (iblk3 V c 6 t) (iblk3 V c 7 t) := by
  dsimp only [dat3]

theorem hin3 (c : Dev nD) : Pipeline.ΦA spec3 c ⊢ (dat3 V c).Φ 0 := .rfl

theorem hout3 (c : Dev nD) : (dat3 V c).Φ (Fin.last cfg3.N) ⊢ Pipeline.ΦA spec3 c := Phi3_le V c cfg3.N le_rfl

theorem before3 (c : Dev nD) (t : Fin cfg3.N) : ∀ w : Fin 9, w ≠ 8 → ∀ d, (dat3 V c).before w t d = (dat3 V c).after w t := by
  intro w; fin_cases w <;> first
    | exact fun h => absurd rfl h
    | exact fun _ d => (dat3 V c).before_in_eq_fetched _ rfl (fun _ => rfl) (fun _ _ _ => rfl) (fun _ => rfl) t d

abbrev ms3 (t : Fin cfg3.N) (w : Fin cfg3.W) := (cfg3.win w).stage (cfg3.slots t w)
theorem hs3 (t : Fin cfg3.N) (w : Fin cfg3.W) : (ms3 t w).IsWhole := stage_whole3 w _

abbrev pre3 (c : Dev nD) (t : Fin cfg3.N) (w : Fin cfg3.W) : sProp 𝕄 := iprop(∃ d, owns c (ms3 t w) fullShare ((dat3 V c).before w t d))
abbrev post3 (c : Dev nD) (t : Fin cfg3.N) (w : Fin cfg3.W) : sProp 𝕄 := owns c (ms3 t w) fullShare ((dat3 V c).after w t)

def bodyPre3 (c : Dev nD) (t : Fin cfg3.N) : sProp 𝕄 :=
  iprop((dat3 V c).Φ t.castSucc ∗ (dat3 V c).owesAt () t.castSucc ∗ pre3 V c t 0 ∗ pre3 V c t 1 ∗ pre3 V c t 2 ∗ pre3 V c t 3
    ∗ pre3 V c t 4 ∗ pre3 V c t 5 ∗ pre3 V c t 6 ∗ pre3 V c t 7 ∗ pre3 V c t 8)

def bodyPost3 (c : Dev nD) (t : Fin cfg3.N) : sProp 𝕄 :=
  iprop(inv3 c (owns c scM3 fullShare (acc3 V c t.val t.isLt)) ∗ (dat3 V c).owesAt () t.castSucc ∗ post3 V c t 0 ∗ post3 V c t 1
    ∗ post3 V c t 2 ∗ post3 V c t 3 ∗ post3 V c t 4 ∗ post3 V c t 5 ∗ post3 V c t 6 ∗ post3 V c t 7 ∗ (dat3 V c).leavesExact 8 t)

theorem sound_body3 (c : Dev nD) (t : Fin cfg3.N) :
    bodyPre3 V c t ⊢ wp frame (wpE (defs₀ (F := F)) Variants.none c none) Set.univ (bodyAt3 t) (fun _ => bodyPost3 V c t) := by
  have hb := before3 V c t
  unfold bodyPre3 bodyPost3 bodyAt3 pre3 post3
  simp only [hb 0 (by decide), hb 1 (by decide), hb 2 (by decide), hb 3 (by decide), hb 4 (by decide), hb 5 (by decide),
    hb 6 (by decide), hb 7 (by decide)]
  by_cases h0 : t.val % 625 = 0
  · have h1 : ¬t.val % 625 = 624 := by omega
    have hc1 : ¬cond1_1 (grid3.coords t) := fun h => h1 ((hcond3_1 t).mp h)
    rw [Dat.leavesExact_idle (dat3 V c) 8 t (idleAt3_8 _ hc1) (noFlush3_8 t h1), acc3_first V c t h0]
    refine (sep_mono_left (Phi3_le V c _ _)).trans ?_
    rw [PhiA3_eq]; unfold inv3
    iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply run1_AB c (grid3.coords t) _ (hs3 t 0) _ (hs3 t 1) _ (hs3 t 2) _ (hs3 t 3) _ (hs3 t 4) _ (hs3 t 5) _ (hs3 t 6) _ (hs3 t 7)
      _ (hs3 t 8) scM3 (Memref.isWhole_whole _) hc1 ((dat3 V c).after 0 t) ((dat3 V c).after 1 t) ((dat3 V c).after 2 t) d Set.univ _
    rw [if_pos ((hcond3_0 t).mpr h0)]
    iframe H0 H1 H2 HS
    iintro ⟨H0, H1, H2, HS⟩
    iframe
    iexact HS
  · have hc0 : ¬cond1_0 (grid3.coords t) := fun h => h0 ((hcond3_0 t).mp h)
    rw [show (dat3 V c).Φ t.castSucc = Phi3 V c t.val (Nat.le_of_lt t.isLt) from rfl,
      Phi3_pos V c _ _ fun e => h0 (by rw [e]), acc3_next V c t h0]
    unfold inv3
    by_cases h1 : t.val % 625 = 624
    · have hc1 : cond1_1 (grid3.coords t) := (hcond3_1 t).mpr h1
      rw [show (dat3 V c).leavesExact 8 t = owns c (ms3 t 8) fullShare ((dat3 V c).after 8 t) from by
        unfold Dat.leavesExact; rw [liveAt3_8 _ hc1], after3_8, acc3_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply run1_C c (grid3.coords t) _ (hs3 t 0) _ (hs3 t 1) _ (hs3 t 2) _ (hs3 t 3) _ (hs3 t 4) _ (hs3 t 5) _ (hs3 t 6) _ (hs3 t 7)
        _ (hs3 t 8) scM3 (Memref.isWhole_whole _) hc0 hc1 ((dat3 V c).after 0 t) ((dat3 V c).after 1 t) ((dat3 V c).after 2 t)
        ((dat3 V c).after 3 t) ((dat3 V c).after 4 t) ((dat3 V c).after 5 t) ((dat3 V c).after 6 t) ((dat3 V c).after 7 t)
        ((dat3 V c).before 8 t d8) (acc3 V c (t.val - 1) (by omega)) Set.univ _
      iframe H0 H1 H2 H3 H4 H5 H6 H7 H8 HS
      iintro ⟨H0, H1, H2, H3, H4, H5, H6, H7, H8, HS⟩
      iframe
      isplitl [HS]; · iexact HS
      iexact H8
    · have hc1 : ¬cond1_1 (grid3.coords t) := fun h => h1 ((hcond3_1 t).mp h)
      rw [Dat.leavesExact_idle (dat3 V c) 8 t (idleAt3_8 _ hc1) (noFlush3_8 t h1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply run1_AB c (grid3.coords t) _ (hs3 t 0) _ (hs3 t 1) _ (hs3 t 2) _ (hs3 t 3) _ (hs3 t 4) _ (hs3 t 5) _ (hs3 t 6) _ (hs3 t 7)
        _ (hs3 t 8) scM3 (Memref.isWhole_whole _) hc1 ((dat3 V c).after 0 t) ((dat3 V c).after 1 t) ((dat3 V c).after 2 t)
        (acc3 V c (t.val - 1) (by omega)) Set.univ _
      rw [if_neg hc0]
      iframe H0 H1 H2 HS
      iintro ⟨H0, H1, H2, HS⟩
      iframe
      iexact HS

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«407445_j30339648979088_1_alg».proof.Proof.Gen.KernelIdeal.Skeleton
import proofs.«407445_j30339648979088_1_alg».proof.Proof.KI.Sched
import proofs.«407445_j30339648979088_1_alg».proof.Proof.KI.Own
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

set_option maxHeartbeats 1000000 in
theorem sound_kernel4 (c : Dev nD) (E : Set ℕ) (i : grid4.Coords)
    (arg1 : Memref sig .tc .vmem S2560x128 .bf16) (harg1 : arg1.IsWhole) (arg2 : Memref sig .tc .vmem S128x2 .bf16) (harg2 : arg2.IsWhole)
    (arg3 : Memref sig .tc .vmem S1x2 .f32) (harg3 : arg3.IsWhole) (arg4 : Memref sig .tc .vmem S2560x2 .f32) (harg4 : arg4.IsWhole)
    (x0 : Vec F S2560x128 .bf16) (x1 : Vec F S128x2 .bf16) (x2 : Vec F S1x2 .f32) (d : Vec F S2560x2 .f32) (K : PUnit → sProp 𝕄) :
    iprop(owns c arg1 fullShare x0 ∗ owns c arg2 fullShare x1 ∗ owns c arg3 fullShare x2 ∗ owns c arg4 fullShare d
        ∗ (iprop(owns c arg1 fullShare x0 ∗ owns c arg2 fullShare x1 ∗ owns c arg3 fullShare x2
            ∗ owns c arg4 fullShare (k4_pay1 x0 x1 x2)) -∗ K ⟨⟩))
      ⊢ wp frame (wpE (defs₀ (F := F)) Variants.none c none) E (cc4__linear_kernel i arg1 harg1 arg2 harg2 arg3 harg3 arg4 harg4) K := by
  rw [owns_unread harg1 x0, owns_unread harg2 x1, owns_unread harg3 x2, owns_unread harg4 d]
  simp only [cc4__linear_kernel_eq_skeleton]; unfold cc4__linear_kernel_skel
  iintro ⟨H0, H1, H2, H3, Hk⟩
  sl_exec
  sl_step
  iapply Hk
  iframe H0 H1 H2
  unfold owns; iexists _; isplitr
  swap; · iexact H3
  ipureintro
  rw [read_writes_unit0 _ _ off2_zero, readAt_unit0 arg1 harg1 off2_zero, readAt_unit0 arg2 harg2 off2_zero,
    readAt_unit0 arg3 harg3 off2_zero]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay1 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = k4_pay1 (iblk4 V c 0 t) (iblk4 V c 1 t) (iblk4 V c 2 t) := by dsimp only [dat4]

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

theorem before4 (c : Dev nD) (t : Fin cfg4.N) : ∀ w : Fin 4, w ≠ 3 → ∀ d, (dat4 V c).before w t d = (dat4 V c).after w t := by
  intro w; fin_cases w <;> first
    | exact fun h => absurd rfl h
    | exact fun _ d => (dat4 V c).before_in_eq_fetched _ rfl (fun _ => rfl) (fun _ _ _ => rfl) (fun _ => rfl) t d

abbrev ms4 (t : Fin cfg4.N) (w : Fin cfg4.W) := (cfg4.win w).stage (cfg4.slots t w)
theorem hs4 (t : Fin cfg4.N) (w : Fin cfg4.W) : (ms4 t w).IsWhole := stage_whole4 w _

abbrev pre4 (c : Dev nD) (t : Fin cfg4.N) (w : Fin cfg4.W) : sProp 𝕄 := iprop(∃ d, owns c (ms4 t w) fullShare ((dat4 V c).before w t d))
abbrev post4 (c : Dev nD) (t : Fin cfg4.N) (w : Fin cfg4.W) : sProp 𝕄 := owns c (ms4 t w) fullShare ((dat4 V c).after w t)

def bodyPre4 (c : Dev nD) (t : Fin cfg4.N) : sProp 𝕄 :=
  iprop((dat4 V c).Φ t.castSucc ∗ (dat4 V c).owesAt () t.castSucc ∗ pre4 V c t 0 ∗ pre4 V c t 1 ∗ pre4 V c t 2 ∗ pre4 V c t 3)

def bodyPost4 (c : Dev nD) (t : Fin cfg4.N) : sProp 𝕄 :=
  iprop((dat4 V c).Φ t.castSucc ∗ (dat4 V c).owesAt () t.castSucc ∗ post4 V c t 0 ∗ post4 V c t 1 ∗ post4 V c t 2 ∗ post4 V c t 3)

theorem sound_body4 (c : Dev nD) (t : Fin cfg4.N) :
    bodyPre4 V c t ⊢ wp frame (wpE (defs₀ (F := F)) Variants.none c none) Set.univ (bodyAt4 t) (fun _ => bodyPost4 V c t) := by
  have hb := before4 V c t
  unfold bodyPre4 bodyPost4 bodyAt4 pre4 post4
  simp only [hb 0 (by decide), hb 1 (by decide), hb 2 (by decide)]
  iintro ⟨HΦ, Ho, ⟨%d0, H0⟩, ⟨%d1, H1⟩, ⟨%d2, H2⟩, ⟨%d3, H3⟩⟩
  iapply sound_kernel4 c Set.univ (grid4.coords t) _ (hs4 t 0) _ (hs4 t 1) _ (hs4 t 2) _ (hs4 t 3)
    ((dat4 V c).after 0 t) ((dat4 V c).after 1 t) ((dat4 V c).after 2 t) ((dat4 V c).before 3 t d3) _
  iframe H0 H1 H2 H3
  iintro ⟨H0, H1, H2, H3⟩
  iframe
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Segs.lean ====
import proofs.«407445_j30339648979088_1_alg».proof.Proof.KI.R0
import proofs.«407445_j30339648979088_1_alg».proof.Proof.KI.R1
import proofs.«407445_j30339648979088_1_alg».proof.Proof.KI.R2
import proofs.«407445_j30339648979088_1_alg».proof.Proof.KI.R3
import proofs.«407445_j30339648979088_1_alg».proof.Proof.KI.R4
import proofs.«407445_j30339648979088_1_alg».proof.Proof.Gen.KernelIdeal.Regions
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev Vin0 := atTc (V1 m)
/-- What region 0 leaves in its output array; so below, each region entered from contents that hold the earlier results. -/
def o29 (c : Dev nD) : Buf (Elt F) ((c : Thread nD τ).loc main_v29) := (dat0 (Vin0 m) c).arrAt 3 cfg0.N
def W2 (c : Dev nD) : Valuation τ sig (Elt F) := Function.update (V1 m c) main_v29 (o29 m c)
def o30 (c : Dev nD) : Buf (Elt F) ((c : Thread nD τ).loc main_v30) := (dat1 (atTc (W2 m)) c).arrAt 8 cfg1.N
def W4 (c : Dev nD) : Valuation τ sig (Elt F) := StableHlo.after hostOps2 (Function.update (W2 m c) main_v30 (o30 m c))
def o34 (c : Dev nD) : Buf (Elt F) ((c : Thread nD τ).loc main_v34) := (dat2 (atTc (W4 m)) c).arrAt 3 cfg2.N
def W5 (c : Dev nD) : Valuation τ sig (Elt F) := Function.update (W4 m c) main_v34 (o34 m c)
def o35 (c : Dev nD) : Buf (Elt F) ((c : Thread nD τ).loc main_v35) := (dat3 (atTc (W5 m)) c).arrAt 8 cfg3.N
def W7 (c : Dev nD) : Valuation τ sig (Elt F) := StableHlo.after hostOps4 (Function.update (W5 m c) main_v35 (o35 m c))
def o38 (c : Dev nD) : Buf (Elt F) ((c : Thread nD τ).loc main_v38) := (dat4 (atTc (W7 m)) c).arrAt 3 cfg4.N

/-- The launch contents but for one reference, which holds `o`. -/
def out1 (r : Ref sig .tc) (o : (c : Dev nD) → Buf (Elt F) ((c : Thread nD τ).loc r)) :
    (r' : Ref sig .tc) → (c : Dev nD) → Buf (Elt F) ((c : Thread nD τ).loc r') :=
  Function.update (fun r' c => m ((c : Thread nD τ).loc r')) r o
theorem out1_self (r : Ref sig .tc) (o : (c : Dev nD) → Buf (Elt F) ((c : Thread nD τ).loc r)) (c : Dev nD) :
    out1 m r o r c = o c := by unfold out1; rw [Function.update_self]

def outs : Outs (F := F) := fun
  | 2 => out1 m main_v29 (o29 m)
  | 3 => out1 m main_v30 (o30 m)
  | 5 => out1 m main_v34 (o34 m)
  | 6 => out1 m main_v35 (o35 m)
  | 8 => out1 m main_v38 (o38 m)
  | _ => fun r c => m ((c : Thread nD τ).loc r)

abbrev Vin1 := atTc (V2 m (outs m))
abbrev Vin2 := atTc (V4 m (outs m))
abbrev Vin3 := atTc (V5 m (outs m))
abbrev Vin4 := atTc (V7 m (outs m))

theorem outs2_eq (c : Dev nD) : outs m 2 main_v29 c = (dat0 (Vin0 m) c).arrAt 3 cfg0.N := out1_self m _ _ c
theorem V2_eq : V2 m (outs m) = W2 m := funext fun c => by unfold V2 W2; rw [outs2_eq]; rfl
theorem outs3_eq (c : Dev nD) : outs m 3 main_v30 c = (dat1 (Vin1 m) c).arrAt 8 cfg1.N := by
  unfold Vin1; rw [V2_eq]; exact out1_self m _ _ c
theorem V4_eq : V4 m (outs m) = W4 m := funext fun c => by unfold V4 V3 W4; rw [outs3_eq, V2_eq]; rfl
theorem outs5_eq (c : Dev nD) : outs m 5 main_v34 c = (dat2 (Vin2 m) c).arrAt 3 cfg2.N := by
  unfold Vin2; rw [V4_eq]; exact out1_self m _ _ c
theorem V5_eq : V5 m (outs m) = W5 m := funext fun c => by unfold V5 W5; rw [outs5_eq, V4_eq]; rfl
theorem outs6_eq (c : Dev nD) : outs m 6 main_v35 c = (dat3 (Vin3 m) c).arrAt 8 cfg3.N := by
  unfold Vin3; rw [V5_eq]; exact out1_self m _ _ c
theorem V7_eq : V7 m (outs m) = W7 m := funext fun c => by unfold V7 V6 W7; rw [outs6_eq, V5_eq]; rfl
theorem outs8_eq (c : Dev nD) : outs m 8 main_v38 c = (dat4 (Vin4 m) c).arrAt 3 cfg4.N := by
  unfold Vin4; rw [V7_eq]; exact out1_self m _ _ c

def pdats : (p : Fin 5) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c

abbrev L : GSem nD τ sig → Finset Unit := fun _ => ∅
abbrev lv : GSem nD τ sig → Unit → ℕ := fun _ _ => 0

abbrev E : Fin 6 → Dev nD → sProp 𝕄 :=
  fun _ c => iprop((∃ r, prngReg c r) ∗ ∃ W, owes (c : Thread nD τ) (0 : CellTallies nD τ sig Unit) W)

theorem pdats_facts : ∀ (p : Fin 5) (c : Dev nD), (∀ w, (pdats m p c).q w = fullShare) ∧ (∀ t, (pdats m p c).owed t = 0)
    ∧ (pdats m p c).recorded 0 = Set.univ
  | 0, _ | 1, _ | 2, _ | 3, _ | 4, _ => ⟨fun _ => rfl, fun _ => rfl, rfl⟩

def mkReg {p : Fin 5} (lf : Pipeline.LaunchFacts (nD := nD) (τ := τ) cfgs p) (Vi Vo : Dev nD → Valuation τ sig (Elt F)) (i j : Fin 6)
    (wo : Fin (cfgs p).W) (hA : ∀ c w, (pdats m p c).A w = atTc Vi c (Pipeline.arrRef (cfgs p).spec w))
    (hb : ∀ c, BodyObligation (pdats m p c) (defs₀ (F := F)) Variants.none () Set.univ)
    (hi : ∀ c, Pipeline.ΦA (cfgs p).spec c ⊢ (pdats m p c).Φ 0)
    (ho : ∀ c, (pdats m p c).Φ (Fin.last (cfgs p).N) ⊢ Pipeline.ΦA (cfgs p).spec c)
    (hin : ∀ w, w ≠ wo → ((cfgs p).win w).isOut = false)
    (hat : ∀ c, atTc Vo c (Pipeline.arrRef (cfgs p).spec wo) = (pdats m p c).arrAt wo (cfgs p).N)
    (hof : ∀ c (r : Ref sig .tc), r ∉ [Pipeline.arrRef (cfgs p).spec wo] → Vo c r = Vi c r) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_facts m p c).2.1
  pre c := iprop(StableHlo.held (c : Thread nD τ) (Pipeline.ucRefs τ sig) (Vi c) ∗ E i c)
  post c := iprop(StableHlo.held (c : Thread nD τ) (Pipeline.ucRefs τ sig) (Vo c) ∗ E j c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (pdats_facts m p c).1) (atTc Vi c) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound
    rw [(pdats_facts m p c).2.1, (pdats_facts m p c).2.2]
    icases HO with ⟨%W, HO⟩; iexists W; iframe HO; ipureintro; exact fun _ _ => Or.inl trivial
  hin c := by
    refine BIBase.Entails.trans ?_ (hi c)
    unfold Pipeline.ΦA
    iintro ⟨Hp, -, Hr⟩
    iframe
  hout c := by
    rw [Pipeline.ownSems0_none]
    refine (ho c).trans ?_
    unfold Pipeline.ΦA
    iintro ⟨Hr, Hp⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_facts m p c).1)
      (atTc Vi c) (atTc Vo c) ((pdats m p c).arrAt · (cfgs p).N)
      (fun w => by
        rcases eq_or_ne w wo with rfl | h
        · exact (hat c).symm
        · exact ((pdats m p c).arrAt_in w (hin w h) _).trans ((hA c w).trans (hof c _ (mt List.mem_singleton.mp (lf.win.arr_inj.ne h))).symm))
      (fun b hb => hof c b fun h => hb (List.mem_singleton.mp h ▸ Finset.mem_image_of_mem _ (Finset.mem_univ wo)))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    rw [(pdats_facts m p c).2.1]
    icases HO with ⟨%W, -, HO⟩; iexists W; iexact HO

def reg0 : Pipeline.RegionSeg (pcfgs (F := F)) adm (pdats m) () defs₀ Variants.none L lv 0 :=
  mkReg m launch0 (V1 m) (V2 m (outs m)) 0 1 (3 : Fin 4) (A_eq0 _) (body_obligation0 _) (hin0 _) (hout0 _) (by decide)
    (fun c => (Function.update_self ..).trans (outs2_eq m c)) (V2_of m _)
def reg1 : Pipeline.RegionSeg (pcfgs (F := F)) adm (pdats m) () defs₀ Variants.none L lv 1 :=
  mkReg m launch1 (V2 m (outs m)) (V3 m (outs m)) 1 2 (8 : Fin 9) (A_eq1 _) (body_obligation1 _) (hin1 _) (hout1 _) (by decide)
    (fun c => (Function.update_self ..).trans (outs3_eq m c)) (V3_of m _)
def reg2 : Pipeline.RegionSeg (pcfgs (F := F)) adm (pdats m) () defs₀ Variants.none L lv 2 :=
  mkReg m launch2 (V4 m (outs m)) (V5 m (outs m)) 2 3 (3 : Fin 4) (A_eq2 _) (body_obligation2 _) (hin2 _) (hout2 _) (by decide)
    (fun c => (Function.update_self ..).trans (outs5_eq m c)) (V5_of m _)
def reg3 : Pipeline.RegionSeg (pcfgs (F := F)) adm (pdats m) () defs₀ Variants.none L lv 3 :=
  mkReg m launch3 (V5 m (outs m)) (V6 m (outs m)) 3 4 (8 : Fin 9) (A_eq3 _) (body_obligation3 _) (hin3 _) (hout3 _) (by decide)
    (fun c => (Function.update_self ..).trans (outs6_eq m c)) (V6_of m _)
def reg4 : Pipeline.RegionSeg (pcfgs (F := F)) adm (pdats m) () defs₀ Variants.none L lv 4 :=
  mkReg m launch4 (V7 m (outs m)) (V8 m (outs m)) 4 5 (3 : Fin 4) (A_eq4 _) (body_obligation4 _) (hin4 _) (hout4 _) (by decide)
    (fun c => (Function.update_self ..).trans (outs8_eq m c)) (V8_of m _)

end Cert.KernelIdeal.Hand

end
-- ==== Proof.KI.Eqs.lean ====
import proofs.«407445_j30339648979088_1_alg».proof.KernelIdeal
import Idealize.ShloMosaic.PureOps.Ideal
import Idealize.ShloMosaic.Lib.ValueIdx

noncomputable section

namespace Cert.KernelIdeal.Hand

open Idealize.ShloMosaic Idealize.ShloMosaic.ValueIdx
open Cert.KernelIdeal
open scoped BigOperators

def GatherEq (w2 : S1600000x1.Idx → BitVec 32) (w18 : S1x102400.Idx → BitVec 32) (tbl : S102400x128.Idx → EReal)
    (out : S1600000x128.Idx → EReal) : Prop :=
  ∀ (e : Fin 1600000) (q : Fin 128), out (ix2 e q)
    = ∑ m' : Fin 102400, (if w2 (ix2 e (0 : Fin 1)) = w18 (ix2 (0 : Fin 1) m') then (1 : EReal) else 0) * tbl (ix2 m' q)

def LayerEq (w20 : S102400x1.Idx → BitVec 32) (w5 : S1x1600000.Idx → BitVec 32) (g : S1600000x128.Idx → EReal)
    (w25 : S102400x1.Idx → EReal) (tbl : S102400x128.Idx → EReal) (Wl Wr : S128x128.Idx → EReal) (b : S1x128.Idx → EReal)
    (out : S102400x128.Idx → EReal) : Prop :=
  ∀ (n : Fin 102400) (j : Fin 128), out (ix2 n j)
    = max (((∑ k : Fin 128, ((∑ e : Fin 1600000, (if w20 (ix2 n (0 : Fin 1)) = w5 (ix2 (0 : Fin 1) e) then (1 : EReal) else 0)
              * g (ix2 e k)) * w25 (ix2 n (0 : Fin 1))) * Wl (ix2 k j))
        + (∑ k : Fin 128, tbl (ix2 n k) * Wr (ix2 k j))) + b (ix2 (0 : Fin 1) j)) 0

def HeadEq (tbl : S102400x128.Idx → EReal) (W : S128x2.Idx → EReal) (b : S1x2.Idx → EReal)
    (out : S102400x2.Idx → EReal) : Prop :=
  ∀ (n : Fin 102400) (j : Fin 2), out (ix2 n j)
    = (∑ k : Fin 128, tbl (ix2 n k) * W (ix2 k j)) + b (ix2 (0 : Fin 1) j)

end Cert.KernelIdeal.Hand

end
-- ==== Proof.KI.P0.lean ====
import proofs.«407445_j30339648979088_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic
open Idealize.ShloMosaic.ValueIdx
open scoped BigOperators

theorem onehot_val (a b : BitVec 32) :
    (FloatOps.sitofp (F := Ideal) .f32 ((IntOp.cmpi .eq a b).setWidth 32) : EReal) = if a = b then 1 else 0 := by
  by_cases h : a = b
  · rw [if_pos h, IntOp.cmpi_eq.mpr h]
    show (((((1#1 : BitVec 1).setWidth 32).toInt : ℤ) : ℝ) : EReal) = 1
    rw [show ((1#1 : BitVec 1).setWidth 32).toInt = 1 from by decide]; simp
  · rw [if_neg h, eq_zero_of_ne_one (fun e => h (IntOp.cmpi_eq.mp e))]
    show (((((0#1 : BitVec 1).setWidth 32).toInt : ℤ) : ℝ) : EReal) = 0
    rw [show ((0#1 : BitVec 1).setWidth 32).toInt = 0 from by decide]; simp

/-- `T` tiles of 2560 consecutive indices are all of `Fin N`, each index once. -/
theorem sum_tiles {M : Type*} [AddCommMonoid M] {N : ℕ} (T : ℕ) (hN : T * 2560 = N) (f : Fin N → M) :
    ∑ s ∈ Finset.range T, ∑ l : Fin 2560, (if h : 2560 * s + l.val < N then f ⟨2560 * s + l.val, h⟩ else 0) = ∑ e, f e := by
  subst hN
  rw [Finset.sum_range fun s => ∑ l : Fin 2560, (if h : 2560 * s + l.val < T * 2560 then f ⟨2560 * s + l.val, h⟩ else 0),
    ← Fintype.sum_prod_type', ← Equiv.sum_comp finProdFinEquiv f]
  refine Finset.sum_congr rfl fun x _ => ?_
  rw [dif_pos (by have := x.1.isLt; have := x.2.isLt; omega)]
  exact congrArg f (Fin.ext (by simp [finProdFinEquiv]; omega))

/-- A product accumulated into zero, read at an index: the sum over the contracted axis of factors the caller names. -/
theorem mm_apply {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx) (L R : Fin n → EReal)
    (hl : ∀ k, lhs (D.lhsIdx j ((contrEquiv1 D n hr hs).symm k)) = L k)
    (hrr : ∀ k, rhs (D.rhsIdx j ((contrEquiv1 D n hr hs).symm k)) = R k) :
    FloatOps.matmul D none lhs rhs (constant so .f32 0x00000000#32) j = ∑ k, L k * R k := by
  rw [Ideal.matmul_constant_zero_apply, ← Equiv.sum_comp (contrEquiv1 D n hr hs).symm]
  exact Finset.sum_congr rfl fun k _ => by rw [hl k, hrr k]

abbrev D0 : DotDims S2560x2560 S2560x128 S2560x128 := dot_S2560x2560_S2560x128_S2560x128_1_0_0_1_n_n

theorem pay1_apply0 (y : S2560x128.Idx) : k0_pay1 (F := Ideal) y = 0 := by
  unfold k0_pay1
  simp only [shapeCast_self]
  exact Ideal.ofBits_zero_f32

theorem pay2_apply0 (x0 : Vec Ideal S2560x1 .i32) (x1 : Vec Ideal S1x2560 .i32) (a : Vec Ideal S2560x128 .f32)
    (x2 : Vec Ideal S2560x128 .bf16) (y : S2560x128.Idx) :
    k0_pay2 (F := Ideal) x0 x1 a x2 y
      = a y + ∑ l : Fin 2560, (if x0 (ix2 (y 0) (0 : Fin 1)) = x1 (ix2 (0 : Fin 1) l) then (1 : EReal) else 0) * x2 (ix2 l (y 1)) := by
  unfold k0_pay2
  simp only [shapeCast_self]
  rw [addf_apply]
  simp only [matmul]
  refine congrArg (a y + ·) (mm_apply D0 2560 rfl rfl _ _ y _ _ (fun l => ?_) fun l => congrArg x2 (Shape.idx_ext₂ rfl rfl))
  rw [show D0.lhsIdx y ((contrEquiv1 D0 2560 rfl rfl).symm l) = ix2 (y 0) l from Shape.idx_ext₂ rfl rfl]
  refine Eq.trans ?_ (onehot_val (x0 (ix2 (y 0) (0 : Fin 1))) (x1 (ix2 (0 : Fin 1) l)))
  show FloatOps.sitofp (F := Ideal) .f32 ((IntOp.cmpi .eq (broadcastTo S2560x2560 x0 broadcasts_S2560x1_S2560x2560 (ix2 (y 0) l : S2560x2560.Idx))
      (broadcastTo S2560x2560 x1 broadcasts_S1x2560_S2560x2560 (ix2 (y 0) l : S2560x2560.Idx))).setWidth 32) = _
  rw [broadcastTo_apply x0 _ _ (ix2 (y 0) (0 : Fin 1)) (fun a => by match a with | ⟨0, _⟩ => rfl | ⟨1, _⟩ => rfl),
    broadcastTo_apply x1 _ _ (ix2 (0 : Fin 1) l) (fun a => by match a with | ⟨0, _⟩ => rfl | ⟨1, _⟩ => rfl)]

end Cert.KernelIdeal.Hand

end
-- ==== Proof.KI.Val0.lean ====
import proofs.«407445_j30339648979088_1_alg».proof.Proof.KI.R0
import proofs.«407445_j30339648979088_1_alg».proof.Proof.KI.Eqs
import proofs.«407445_j30339648979088_1_alg».proof.Proof.KI.P0

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open scoped BigOperators

variable (V : (c : Dev nD) → (b : Ref sig .tc) → Buf (Elt Ideal) ((c : Thread nD τ).loc b))

theorem idx_facts0 (t : Fin cfg0.N) :
    win0_0.index t (0 : Fin 2) = t.val / 40 ∧ win0_1.index t (1 : Fin 2) = t.val % 40 ∧ win0_2.index t (0 : Fin 2) = t.val % 40
    ∧ win0_3.index t (0 : Fin 2) = t.val / 40 := by
  have hN : t.val < 25000 := lt_of_lt_of_eq t.isLt N_0
  have h0 : (BitVec.ofNat 32 (grid0.coords t 0).val).toNat = t.val / 40 := by
    rw [coordA0, BitVec.toNat_ofNat]; omega
  have h1 : (BitVec.ofNat 32 (grid0.coords t 1).val).toNat = t.val % 40 := by
    rw [coordB0, BitVec.toNat_ofNat]; omega
  exact ⟨h0, h1, h1, h0⟩

theorem iblk0_0_apply (c : Dev nD) (t : Fin cfg0.N) (r : Fin 2560) (e : Fin 1600000) (he : e.val = 2560 * (t.val / 40) + r.val) :
    iblk0 V c 0 t (ix2 r (0 : Fin 1)) = V c main_v2 (ix2 e (0 : Fin 1)) := by
  have := idx_facts0 t
  exact congrArg (V c main_v2) (Shape.idx_ext₂ (by show win0_0.index t (0 : Fin 2) * 2560 + 1 * r.val = e.val; omega)
    (by show 0 * 1 + 1 * 0 = 0; omega))

theorem iblk0_1_apply (c : Dev nD) (t : Fin cfg0.N) (l : Fin 2560) (m : Fin 102400) (hm : m.val = 2560 * (t.val % 40) + l.val) :
    iblk0 V c 1 t (ix2 (0 : Fin 1) l) = V c main_v18 (ix2 (0 : Fin 1) m) := by
  have := idx_facts0 t
  exact congrArg (V c main_v18) (Shape.idx_ext₂ (by show 0 * 1 + 1 * 0 = 0; omega)
    (by show win0_1.index t (1 : Fin 2) * 2560 + 1 * l.val = m.val; omega))

theorem iblk0_2_apply (c : Dev nD) (t : Fin cfg0.N) (l : Fin 2560) (q : Fin 128) (m : Fin 102400) (hm : m.val = 2560 * (t.val % 40) + l.val) :
    iblk0 V c 2 t (ix2 l q) = V c main_v23 (ix2 m q) := by
  have := idx_facts0 t
  exact congrArg (V c main_v23) (Shape.idx_ext₂ (by show win0_2.index t (0 : Fin 2) * 2560 + 1 * l.val = m.val; omega)
    (by show 0 * 128 + 1 * q.val = q.val; omega))

abbrev term0 (c : Dev nD) (e : Fin 1600000) (q : Fin 128) (m : Fin 102400) : EReal :=
  (if V c main_v2 (ix2 e (0 : Fin 1)) = V c main_v18 (ix2 (0 : Fin 1) m) then (1 : EReal) else 0) * V c main_v23 (ix2 m q)

def tile0 (c : Dev nD) (e : Fin 1600000) (q : Fin 128) (s : ℕ) : EReal :=
  ∑ l : Fin 2560, (if h : 2560 * s + l.val < 102400 then term0 V c e q ⟨2560 * s + l.val, h⟩ else 0)

theorem pay2_point0 (c : Dev nD) (t : Fin cfg0.N) (a : Vec Ideal S2560x128 .f32) (y : S2560x128.Idx) (e : Fin 1600000)
    (he : e.val = 2560 * (t.val / 40) + (y 0).val) :
    k0_pay2 (iblk0 V c 0 t) (iblk0 V c 1 t) a (iblk0 V c 2 t) y = a y + tile0 V c e (y 1) (t.val % 40) := by
  rw [pay2_apply0]
  congr 1
  unfold tile0
  refine Finset.sum_congr rfl fun l _ => ?_
  have hl : 2560 * (t.val % 40) + l.val < 102400 := by have := l.isLt; omega
  rw [dif_pos hl, iblk0_0_apply V c t (y 0) e he, iblk0_1_apply V c t l ⟨_, hl⟩ rfl, iblk0_2_apply V c t l (y 1) ⟨_, hl⟩ rfl]

theorem acc0_apply (c : Dev nD) : ∀ (n : ℕ) (hn : n < cfg0.N) (y : S2560x128.Idx) (e : Fin 1600000)
    (he : e.val = 2560 * (n / 40) + (y 0).val),
    acc0 V c n hn y = ∑ s ∈ Finset.range (n % 40 + 1), tile0 V c e (y 1) s := by
  intro n
  induction n using Nat.strong_induction_on with
  | _ n ih =>
    intro hn y e he
    by_cases h0 : n % 40 = 0
    · rw [congrFun (acc0_first V c ⟨n, hn⟩ h0) y, pay2_point0 V c ⟨n, hn⟩ _ y e he, h0, Finset.sum_range_one]
      exact (congrArg (· + _) (pay1_apply0 y)).trans (zero_add _)
    · rw [congrFun (acc0_next V c ⟨n, hn⟩ h0) y, pay2_point0 V c ⟨n, hn⟩ _ y e he,
        ih (n - 1) (by omega) _ y e (by rw [he]; omega), show (n - 1) % 40 + 1 = n % 40 from by omega, Finset.sum_range_succ]

def G0 (c : Dev nD) : Buf (Elt Ideal) ((c : Thread nD τ).loc main_v29) :=
  fun i : S1600000x128.Idx => (∑ m : Fin 102400, term0 V c (i 0) (i 1) m : EReal)

theorem flushed0_eq (c : Dev nD) (t : Fin cfg0.N) (hf : (cfg0.win 3).flush t = true) :
    (dat0 V c).flushed 3 t = ((cfg0.win 3).blk t).view.read (Elt Ideal) (G0 V c) := by
  have h39 : t.val % 40 = 39 := (flush0_3 t).mp hf
  have hN : t.val < 25000 := lt_of_lt_of_eq t.isLt N_0
  have := idx_facts0 t
  show (cfg0.win 3).cut (grid0.coords t) ((dat0 V c).after 3 t) = _
  rw [after0_3]
  refine funext fun (y : S2560x128.Idx) => ?_
  have hy0 := idx2_lt0 y
  have he : 2560 * (t.val / 40) + (y 0).val < 1600000 := by omega
  rw [View.read_apply, show ((cfg0.win 3).blk t).view.emb y = ix2 (⟨_, he⟩ : Fin 1600000) (y 1) from Shape.idx_ext₂
    (by show win0_3.index t (0 : Fin 2) * 2560 + 1 * (y 0).val = 2560 * (t.val / 40) + (y 0).val; omega)
    (by show 0 * 128 + 1 * (y 1).val = (y 1).val; omega)]
  refine Eq.trans ?_ (cast_eq _ _).symm
  show acc0 V c t.val t.isLt y = _
  rw [acc0_apply V c t.val t.isLt y ⟨_, he⟩ rfl, h39]
  exact sum_tiles 40 rfl (term0 V c ⟨_, he⟩ (y 1))

theorem cover0 (i : S1600000x128.Idx) :
    ∃ t : Fin cfg0.N, (cfg0.win 3).flush t = true ∧ i ∈ ((cfg0.win 3).blk t).view.set := by
  have hi0 := idx2_lt0 i
  have hi1 := idx2_lt1 i
  have hN : cfg0.N = 25000 := N_0
  obtain ⟨t, ht⟩ : ∃ t : Fin cfg0.N, t.val = 40 * ((i 0).val / 2560) + 39 := ⟨⟨_, by omega⟩, rfl⟩
  have := idx_facts0 t
  refine ⟨t, (flush0_3 t).mpr (by omega), ?_⟩
  show i ∈ ((View.whole main_v29).slice (win0_3.rect t)).set
  rw [View.set_slice_whole, Rect.mem_set_unit]
  intro a
  match a with
  | ⟨0, _⟩ => show win0_3.index t (0 : Fin 2) * 2560 ≤ (i 0).val ∧ (i 0).val < win0_3.index t (0 : Fin 2) * 2560 + 2560; omega
  | ⟨1, _⟩ => show 0 * 128 ≤ (i 1).val ∧ (i 1).val < 0 * 128 + 128; omega

theorem out0_apply (c : Dev nD) :
    GatherEq (V c main_v2) (V c main_v18) (V c main_v23) ((dat0 (F := Ideal) V c).arrAt 3 cfg0.N) := by
  intro e q
  rw [(dat0 V c).arrAt_eq_of_cover 3 (G0 V c) (fun t hf => flushed0_eq V c t hf) cover0]
  rfl

end Cert.KernelIdeal.Hand

end
-- ==== Proof.KI.P1.lean ====
import proofs.«407445_j30339648979088_1_alg».proof.Proof.KI.P0

noncomputable section

namespace Cert.KernelIdeal.Hand

open Cert.KernelIdeal Cert.KernelIdeal.Gen
open Idealize.ShloMosaic
open Idealize.ShloMosaic.ValueIdx
open scoped BigOperators

abbrev D1b : DotDims S2560x128 S128x128 S2560x128 := dot_S2560x128_S128x128_S2560x128_1_0_0_1_n_n

theorem D1b_lhs (y : S2560x128.Idx) (k : Fin 128) :
    D1b.lhsIdx y ((contrEquiv1 D1b 128 rfl rfl).symm k) = ix2 (y 0) k := Shape.idx_ext₂ rfl rfl
theorem D1b_rhs (y : S2560x128.Idx) (k : Fin 128) :
    D1b.rhsIdx y ((contrEquiv1 D1b 128 rfl rfl).symm k) = ix2 k (y 1) := Shape.idx_ext₂ rfl rfl

/-- The combine at an index, over factors the caller names. -/
theorem pay3_apply1 (a : Vec Ideal S2560x128 .f32) (x3 : Vec Ideal S2560x1 .f32) (x5 : Vec Ideal S128x128 .bf16)
    (x4 : Vec Ideal S2560x128 .bf16) (x6 : Vec Ideal S128x128 .bf16) (x7 : Vec Ideal S1x128 .f32) (y : S2560x128.Idx)
    (A L T R : Fin 128 → EReal) (s b : EReal)
    (ha : ∀ k, a (ix2 (y 0) k) = A k) (h3 : x3 (ix2 (y 0) (0 : Fin 1)) = s) (h5 : ∀ k, x5 (ix2 k (y 1)) = L k)
    (h4 : ∀ k, x4 (ix2 (y 0) k) = T k) (h6 : ∀ k, x6 (ix2 k (y 1)) = R k) (h7 : x7 (ix2 (0 : Fin 1) (y 1)) = b) :
    k1_pay3 (F := Ideal) a x3 x5 x4 x6 x7 y = max (((∑ k, (A k * s) * L k) + ∑ k, T k * R k) + b) 0 := by
  unfold k1_pay3
  simp only [shapeCast_self]
  rw [truncf_apply, maximumf_apply, addf_apply, addf_apply]
  simp only [matmul]
  congr 1
  · congr 1
    · congr 1
      · refine mm_apply D1b 128 rfl rfl _ _ y _ _ (fun k => ?_) fun k => (congrArg x5 (D1b_rhs y k)).trans (h5 k)
        rw [D1b_lhs]
        show a (ix2 (y 0) k : S2560x128.Idx) * broadcastTo S2560x128 x3 broadcasts_S2560x1_S2560x128 (ix2 (y 0) k : S2560x128.Idx) = _
        rw [ha k, broadcastTo_apply x3 _ _ (ix2 (y 0) (0 : Fin 1)) (fun a => by match a with | ⟨0, _⟩ => rfl | ⟨1, _⟩ => rfl), h3]
      · exact mm_apply D1b 128 rfl rfl _ _ y _ _ (fun k => (congrArg x4 (D1b_lhs y k)).trans (h4 k))
          fun k => (congrArg x6 (D1b_rhs y k)).trans (h6 k)
    · exact (broadcastTo_apply x7 _ y (ix2 (0 : Fin 1) (y 1)) (fun a => by match a with | ⟨0, _⟩ => rfl | ⟨1, _⟩ => rfl)).trans h7
  · exact Ideal.ofBits_zero_f32

end Cert.KernelIdeal.Hand

end
-- ==== Proof.KI.Val1.lean ====
import proofs.«407445_j30339648979088_1_alg».proof.Proof.KI.R1
import proofs.«407445_j30339648979088_1_alg».proof.Proof.KI.Eqs
import proofs.«407445_j30339648979088_1_alg».proof.Proof.KI.P1

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open scoped BigOperators

variable (V : (c : Dev nD) → (b : Ref sig .tc) → Buf (Elt Ideal) ((c : Thread nD τ).loc b))

theorem idx_facts1 (t : Fin cfg1.N) :
    win1_0.index t (0 : Fin 2) = t.val / 625 ∧ win1_1.index t (1 : Fin 2) = t.val % 625 ∧ win1_2.index t (0 : Fin 2) = t.val % 625
    ∧ win1_3.index t (0 : Fin 2) = t.val / 625 ∧ win1_4.index t (0 : Fin 2) = t.val / 625 ∧ win1_8.index t (0 : Fin 2) = t.val / 625 := by
  have hN : t.val < 25000 := lt_of_lt_of_eq t.isLt N_1
  have h0 : (BitVec.ofNat 32 ((grid1.coords t) 0).val).toNat = t.val / 625 := by
    rw [coord1_0, BitVec.toNat_ofNat]; omega
  have h1 : (BitVec.ofNat 32 ((grid1.coords t) 1).val).toNat = t.val % 625 := by
    rw [coords1_1, BitVec.toNat_ofNat]; omega
  exact ⟨h0, h1, h1, h0, h0, h0⟩

theorem iblk1_0_apply (c : Dev nD) (t : Fin cfg1.N) (r : Fin 2560) (i : Fin 102400) (hi : i.val = 2560 * (t.val / 625) + r.val) :
    iblk1 V c 0 t (ix2 r (0 : Fin 1)) = V c main_v20 (ix2 i (0 : Fin 1)) := by
  have := idx_facts1 t
  exact congrArg (V c main_v20) (Shape.idx_ext₂ (by show win1_0.index t (0 : Fin 2) * 2560 + 1 * r.val = i.val; omega)
    (by show 0 * 1 + 1 * 0 = 0; omega))

theorem iblk1_1_apply (c : Dev nD) (t : Fin cfg1.N) (l : Fin 2560) (e : Fin 1600000) (he : e.val = 2560 * (t.val % 625) + l.val) :
    iblk1 V c 1 t (ix2 (0 : Fin 1) l) = V c main_v5 (ix2 (0 : Fin 1) e) := by
  have := idx_facts1 t
  exact congrArg (V c main_v5) (Shape.idx_ext₂ (by show 0 * 1 + 1 * 0 = 0; omega)
    (by show win1_1.index t (1 : Fin 2) * 2560 + 1 * l.val = e.val; omega))

theorem iblk1_2_apply (c : Dev nD) (t : Fin cfg1.N) (l : Fin 2560) (q : Fin 128) (e : Fin 1600000) (he : e.val = 2560 * (t.val % 625) + l.val) :
    iblk1 V c 2 t (ix2 l q) = V c main_v29 (ix2 e q) := by
  have := idx_facts1 t
  exact congrArg (V c main_v29) (Shape.idx_ext₂ (by show win1_2.index t (0 : Fin 2) * 2560 + 1 * l.val = e.val; omega)
    (by show 0 * 128 + 1 * q.val = q.val; omega))

theorem iblk1_3_apply (c : Dev nD) (t : Fin cfg1.N) (r : Fin 2560) (i : Fin 102400) (hi : i.val = 2560 * (t.val / 625) + r.val) :
    iblk1 V c 3 t (ix2 r (0 : Fin 1)) = V c main_v25 (ix2 i (0 : Fin 1)) := by
  have := idx_facts1 t
  exact congrArg (V c main_v25) (Shape.idx_ext₂ (by show win1_3.index t (0 : Fin 2) * 2560 + 1 * r.val = i.val; omega)
    (by show 0 * 1 + 1 * 0 = 0; omega))

theorem iblk1_4_apply (c : Dev nD) (t : Fin cfg1.N) (r : Fin 2560) (k : Fin 128) (i : Fin 102400) (hi : i.val = 2560 * (t.val / 625) + r.val) :
    iblk1 V c 4 t (ix2 r k) = V c main_v23 (ix2 i k) := by
  have := idx_facts1 t
  exact congrArg (V c main_v23) (Shape.idx_ext₂ (by show win1_4.index t (0 : Fin 2) * 2560 + 1 * r.val = i.val; omega)
    (by show 0 * 128 + 1 * k.val = k.val; omega))

theorem iblk1_5_apply (c : Dev nD) (t : Fin cfg1.N) (y : S128x128.Idx) : iblk1 V c 5 t y = V c main_v26 y :=
  congrArg (V c main_v26) (Shape.idx_ext₂ (by show 0 * 128 + 1 * (y 0).val = (y 0).val; omega)
    (by show 0 * 128 + 1 * (y 1).val = (y 1).val; omega))

theorem iblk1_6_apply (c : Dev nD) (t : Fin cfg1.N) (y : S128x128.Idx) : iblk1 V c 6 t y = V c main_v27 y :=
  congrArg (V c main_v27) (Shape.idx_ext₂ (by show 0 * 128 + 1 * (y 0).val = (y 0).val; omega)
    (by show 0 * 128 + 1 * (y 1).val = (y 1).val; omega))

theorem iblk1_7_apply (c : Dev nD) (t : Fin cfg1.N) (y : S1x128.Idx) : iblk1 V c 7 t y = V c main_v28 y :=
  congrArg (V c main_v28) (Shape.idx_ext₂ (by show 0 * 1 + 1 * (y 0).val = (y 0).val; omega)
    (by show 0 * 128 + 1 * (y 1).val = (y 1).val; omega))

abbrev term1 (c : Dev nD) (i : Fin 102400) (q : Fin 128) (e : Fin 1600000) : EReal :=
  (if V c main_v20 (ix2 i (0 : Fin 1)) = V c main_v5 (ix2 (0 : Fin 1) e) then (1 : EReal) else 0) * V c main_v29 (ix2 e q)

def tile1 (c : Dev nD) (i : Fin 102400) (q : Fin 128) (s : ℕ) : EReal :=
  ∑ l : Fin 2560, (if h : 2560 * s + l.val < 1600000 then term1 V c i q ⟨2560 * s + l.val, h⟩ else 0)

theorem pay2_point1 (c : Dev nD) (t : Fin cfg1.N) (a : Vec Ideal S2560x128 .f32) (y : S2560x128.Idx) (i : Fin 102400)
    (hi : i.val = 2560 * (t.val / 625) + (y 0).val) :
    k1_pay2 (iblk1 V c 0 t) (iblk1 V c 1 t) a (iblk1 V c 2 t) y = a y + tile1 V c i (y 1) (t.val % 625) := by
  refine (pay2_apply0 _ _ _ _ y).trans ?_
  congr 1
  unfold tile1
  refine Finset.sum_congr rfl fun l _ => ?_
  have hl : 2560 * (t.val % 625) + l.val < 1600000 := by have := l.isLt; omega
  rw [dif_pos hl, iblk1_0_apply V c t (y 0) i hi, iblk1_1_apply V c t l ⟨_, hl⟩ rfl, iblk1_2_apply V c t l (y 1) ⟨_, hl⟩ rfl]

theorem acc1_apply (c : Dev nD) : ∀ (n : ℕ) (hn : n < cfg1.N) (y : S2560x128.Idx) (i : Fin 102400)
    (hi : i.val = 2560 * (n / 625) + (y 0).val),
    acc1 V c n hn y = ∑ s ∈ Finset.range (n % 625 + 1), tile1 V c i (y 1) s := by
  intro n
  induction n using Nat.strong_induction_on with
  | _ n ih =>
    intro hn y i hi
    by_cases h0 : n % 625 = 0
    · rw [congrFun (acc1_first V c ⟨n, hn⟩ h0) y, pay2_point1 V c ⟨n, hn⟩ _ y i hi, h0, Finset.sum_range_one]
      exact (congrArg (· + _) (pay1_apply0 y)).trans (zero_add _)
    · rw [congrFun (acc1_next V c ⟨n, hn⟩ h0) y, pay2_point1 V c ⟨n, hn⟩ _ y i hi,
        ih (n - 1) (by omega) _ y i (by rw [hi]; omega), show (n - 1) % 625 + 1 = n % 625 from by omega, Finset.sum_range_succ]

def layer1 (c : Dev nD) (w25 : S102400x1.Idx → EReal) (tbl : S102400x128.Idx → EReal) (Wl Wr : S128x128.Idx → EReal)
    (b : S1x128.Idx → EReal) : S102400x128.Idx → EReal := fun i =>
  max (((∑ k : Fin 128, ((∑ e : Fin 1600000, term1 V c (i 0) k e) * w25 (ix2 (i 0) (0 : Fin 1))) * Wl (ix2 k (i 1)))
      + ∑ k : Fin 128, tbl (ix2 (i 0) k) * Wr (ix2 k (i 1))) + b (ix2 (0 : Fin 1) (i 1))) 0

def G1 (c : Dev nD) : S102400x128.Idx → EReal :=
  layer1 V c (V c main_v25) (V c main_v23) (V c main_v26) (V c main_v27) (V c main_v28)

theorem flushed1_eq (c : Dev nD) (t : Fin cfg1.N) (hf : (cfg1.win 8).flush t = true) :
    (dat1 (F := Ideal) V c).flushed 8 t = ((cfg1.win 8).blk t).view.read (Elt Ideal) (G1 V c) := by
  have h624 : t.val % 625 = 624 := (flush1_8 t).mp hf
  have hN : t.val < 25000 := lt_of_lt_of_eq t.isLt N_1
  have := idx_facts1 t
  show (cfg1.win 8).cut (grid1.coords t) ((dat1 V c).after 8 t) = _
  rw [after1_8]
  refine funext fun (y : S2560x128.Idx) => ?_
  have hy0 := idx2_lt0 y
  have hi : 2560 * (t.val / 625) + (y 0).val < 102400 := by omega
  rw [View.read_apply, show ((cfg1.win 8).blk t).view.emb y = ix2 (⟨_, hi⟩ : Fin 102400) (y 1) from Shape.idx_ext₂
    (by show win1_8.index t (0 : Fin 2) * 2560 + 1 * (y 0).val = 2560 * (t.val / 625) + (y 0).val; omega)
    (by show 0 * 128 + 1 * (y 1).val = (y 1).val; omega)]
  refine Eq.trans ?_ (cast_eq _ _).symm
  show k1_pay3 (acc1 V c t.val t.isLt) (iblk1 V c 3 t) (iblk1 V c 5 t) (iblk1 V c 4 t) (iblk1 V c 6 t) (iblk1 V c 7 t) y = _
  unfold G1 layer1
  exact pay3_apply1 _ _ _ _ _ _ y _ _ _ _ _ _
    (fun k => by rw [acc1_apply V c t.val t.isLt (ix2 (y 0) k) ⟨_, hi⟩ rfl, h624]; exact sum_tiles 625 rfl (term1 V c ⟨_, hi⟩ k))
    (iblk1_3_apply V c t (y 0) ⟨_, hi⟩ rfl) (fun k => iblk1_5_apply V c t _) (fun k => iblk1_4_apply V c t (y 0) k ⟨_, hi⟩ rfl)
    (fun k => iblk1_6_apply V c t _) (iblk1_7_apply V c t _)

theorem cover1 (i : S102400x128.Idx) : ∃ t : Fin cfg1.N, (cfg1.win 8).flush t = true ∧ i ∈ ((cfg1.win 8).blk t).view.set := by
  have hi0 := idx2_lt0 i
  have hi1 := idx2_lt1 i
  have hN : cfg1.N = 25000 := N_1
  obtain ⟨t, ht⟩ : ∃ t : Fin cfg1.N, t.val = 625 * ((i 0).val / 2560) + 624 := ⟨⟨_, by omega⟩, rfl⟩
  have := idx_facts1 t
  refine ⟨t, (flush1_8 t).mpr (by omega), ?_⟩
  show i ∈ ((View.whole main_v30).slice (win1_8.rect t)).set
  rw [View.set_slice_whole, Rect.mem_set_unit]
  intro a
  match a with
  | ⟨0, _⟩ => show win1_8.index t (0 : Fin 2) * 2560 ≤ (i 0).val ∧ (i 0).val < win1_8.index t (0 : Fin 2) * 2560 + 2560; omega
  | ⟨1, _⟩ => show 0 * 128 ≤ (i 1).val ∧ (i 1).val < 0 * 128 + 128; omega

theorem out1_apply (c : Dev nD) :
    LayerEq (V c main_v20) (V c main_v5) (V c main_v29) (V c main_v25) (V c main_v23) (V c main_v26) (V c main_v27) (V c main_v28)
      ((dat1 (F := Ideal) V c).arrAt 8 cfg1.N) := by
  intro n j
  rw [(dat1 V c).arrAt_eq_of_cover 8 (G1 V c) (fun t hf => flushed1_eq V c t hf) cover1]
  unfold G1 layer1
  rfl

end Cert.KernelIdeal.Hand

end
-- ==== Proof.KI.Val2.lean ====
import proofs.«407445_j30339648979088_1_alg».proof.Proof.KI.R2
import proofs.«407445_j30339648979088_1_alg».proof.Proof.KI.Eqs
import proofs.«407445_j30339648979088_1_alg».proof.Proof.KI.P0

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open scoped BigOperators

variable (V : (c : Dev nD) → (b : Ref sig .tc) → Buf (Elt Ideal) ((c : Thread nD τ).loc b))

theorem idx_facts2 (t : Fin cfg2.N) :
    win2_0.index t (0 : Fin 2) = t.val / 40 ∧ win2_1.index t (1 : Fin 2) = t.val % 40 ∧ win2_2.index t (0 : Fin 2) = t.val % 40
    ∧ win2_3.index t (0 : Fin 2) = t.val / 40 := by
  have hN : t.val < 25000 := lt_of_lt_of_eq t.isLt N_2
  have h0 : (BitVec.ofNat 32 (grid2.coords t 0).val).toNat = t.val / 40 := by
    rw [coordA2, BitVec.toNat_ofNat]; omega
  have h1 : (BitVec.ofNat 32 (grid2.coords t 1).val).toNat = t.val % 40 := by
    rw [coordB2, BitVec.toNat_ofNat]; omega
  exact ⟨h0, h1, h1, h0⟩

theorem iblk2_0_apply (c : Dev nD) (t : Fin cfg2.N) (r : Fin 2560) (e : Fin 1600000) (he : e.val = 2560 * (t.val / 40) + r.val) :
    iblk2 V c 0 t (ix2 r (0 : Fin 1)) = V c main_v2 (ix2 e (0 : Fin 1)) := by
  have := idx_facts2 t
  exact congrArg (V c main_v2) (Shape.idx_ext₂ (by show win2_0.index t (0 : Fin 2) * 2560 + 1 * r.val = e.val; omega)
    (by show 0 * 1 + 1 * 0 = 0; omega))

theorem iblk2_1_apply (c : Dev nD) (t : Fin cfg2.N) (l : Fin 2560) (m : Fin 102400) (hm : m.val = 2560 * (t.val % 40) + l.val) :
    iblk2 V c 1 t (ix2 (0 : Fin 1) l) = V c main_v18 (ix2 (0 : Fin 1) m) := by
  have := idx_facts2 t
  exact congrArg (V c main_v18) (Shape.idx_ext₂ (by show 0 * 1 + 1 * 0 = 0; omega)
    (by show win2_1.index t (1 : Fin 2) * 2560 + 1 * l.val = m.val; omega))

theorem iblk2_2_apply (c : Dev nD) (t : Fin cfg2.N) (l : Fin 2560) (q : Fin 128) (m : Fin 102400) (hm : m.val = 2560 * (t.val % 40) + l.val) :
    iblk2 V c 2 t (ix2 l q) = V c main_v30 (ix2 m q) := by
  have := idx_facts2 t
  exact congrArg (V c main_v30) (Shape.idx_ext₂ (by show win2_2.index t (0 : Fin 2) * 2560 + 1 * l.val = m.val; omega)
    (by show 0 * 128 + 1 * q.val = q.val; omega))

abbrev term2 (c : Dev nD) (e : Fin 1600000) (q : Fin 128) (m : Fin 102400) : EReal :=
  (if V c main_v2 (ix2 e (0 : Fin 1)) = V c main_v18 (ix2 (0 : Fin 1) m) then (1 : EReal) else 0) * V c main_v30 (ix2 m q)

def tile2 (c : Dev nD) (e : Fin 1600000) (q : Fin 128) (s : ℕ) : EReal :=
  ∑ l : Fin 2560, (if h : 2560 * s + l.val < 102400 then term2 V c e q ⟨2560 * s + l.val, h⟩ else 0)

theorem pay2_point2 (c : Dev nD) (t : Fin cfg2.N) (a : Vec Ideal S2560x128 .f32) (y : S2560x128.Idx) (e : Fin 1600000)
    (he : e.val = 2560 * (t.val / 40) + (y 0).val) :
    k0_pay2 (iblk2 V c 0 t) (iblk2 V c 1 t) a (iblk2 V c 2 t) y = a y + tile2 V c e (y 1) (t.val % 40) := by
  rw [pay2_apply0]
  congr 1
  unfold tile2
  refine Finset.sum_congr rfl fun l _ => ?_
  have hl : 2560 * (t.val % 40) + l.val < 102400 := by have := l.isLt; omega
  rw [dif_pos hl, iblk2_0_apply V c t (y 0) e he, iblk2_1_apply V c t l ⟨_, hl⟩ rfl, iblk2_2_apply V c t l (y 1) ⟨_, hl⟩ rfl]

theorem acc2_apply (c : Dev nD) : ∀ (n : ℕ) (hn : n < cfg2.N) (y : S2560x128.Idx) (e : Fin 1600000)
    (he : e.val = 2560 * (n / 40) + (y 0).val),
    acc2 V c n hn y = ∑ s ∈ Finset.range (n % 40 + 1), tile2 V c e (y 1) s := by
  intro n
  induction n using Nat.strong_induction_on with
  | _ n ih =>
    intro hn y e he
    by_cases h0 : n % 40 = 0
    · rw [congrFun (acc2_first V c ⟨n, hn⟩ h0) y, pay2_point2 V c ⟨n, hn⟩ _ y e he, h0, Finset.sum_range_one]
      exact (congrArg (· + _) (pay1_apply0 y)).trans (zero_add _)
    · rw [congrFun (acc2_next V c ⟨n, hn⟩ h0) y, pay2_point2 V c ⟨n, hn⟩ _ y e he,
        ih (n - 1) (by omega) _ y e (by rw [he]; omega), show (n - 1) % 40 + 1 = n % 40 from by omega, Finset.sum_range_succ]

def G2 (c : Dev nD) : Buf (Elt Ideal) ((c : Thread nD τ).loc main_v34) :=
  fun i : S1600000x128.Idx => (∑ m : Fin 102400, term2 V c (i 0) (i 1) m : EReal)

theorem flushed2_eq (c : Dev nD) (t : Fin cfg2.N) (hf : (cfg2.win 3).flush t = true) :
    (dat2 V c).flushed 3 t = ((cfg2.win 3).blk t).view.read (Elt Ideal) (G2 V c) := by
  have h39 : t.val % 40 = 39 := (flush2_3 t).mp hf
  have hN : t.val < 25000 := lt_of_lt_of_eq t.isLt N_2
  have := idx_facts2 t
  show (cfg2.win 3).cut (grid2.coords t) ((dat2 V c).after 3 t) = _
  rw [after2_3]
  refine funext fun (y : S2560x128.Idx) => ?_
  have hy0 := idx2_lt0 y
  have he : 2560 * (t.val / 40) + (y 0).val < 1600000 := by omega
  rw [View.read_apply, show ((cfg2.win 3).blk t).view.emb y = ix2 (⟨_, he⟩ : Fin 1600000) (y 1) from Shape.idx_ext₂
    (by show win2_3.index t (0 : Fin 2) * 2560 + 1 * (y 0).val = 2560 * (t.val / 40) + (y 0).val; omega)
    (by show 0 * 128 + 1 * (y 1).val = (y 1).val; omega)]
  refine Eq.trans ?_ (cast_eq _ _).symm
  show acc2 V c t.val t.isLt y = _
  rw [acc2_apply V c t.val t.isLt y ⟨_, he⟩ rfl, h39]
  exact sum_tiles 40 rfl (term2 V c ⟨_, he⟩ (y 1))

theorem cover2 (i : S1600000x128.Idx) :
    ∃ t : Fin cfg2.N, (cfg2.win 3).flush t = true ∧ i ∈ ((cfg2.win 3).blk t).view.set := by
  have hi0 := idx2_lt0 i
  have hi1 := idx2_lt1 i
  have hN : cfg2.N = 25000 := N_2
  obtain ⟨t, ht⟩ : ∃ t : Fin cfg2.N, t.val = 40 * ((i 0).val / 2560) + 39 := ⟨⟨_, by omega⟩, rfl⟩
  have := idx_facts2 t
  refine ⟨t, (flush2_3 t).mpr (by omega), ?_⟩
  show i ∈ ((View.whole main_v34).slice (win2_3.rect t)).set
  rw [View.set_slice_whole, Rect.mem_set_unit]
  intro a
  match a with
  | ⟨0, _⟩ => show win2_3.index t (0 : Fin 2) * 2560 ≤ (i 0).val ∧ (i 0).val < win2_3.index t (0 : Fin 2) * 2560 + 2560; omega
  | ⟨1, _⟩ => show 0 * 128 ≤ (i 1).val ∧ (i 1).val < 0 * 128 + 128; omega

theorem out2_apply (c : Dev nD) :
    GatherEq (V c main_v2) (V c main_v18) (V c main_v30) ((dat2 (F := Ideal) V c).arrAt 3 cfg2.N) := by
  intro e q
  rw [(dat2 V c).arrAt_eq_of_cover 3 (G2 V c) (fun t hf => flushed2_eq V c t hf) cover2]
  rfl

end Cert.KernelIdeal.Hand

end
-- ==== Proof.KI.Val3.lean ====
import proofs.«407445_j30339648979088_1_alg».proof.Proof.KI.R3
import proofs.«407445_j30339648979088_1_alg».proof.Proof.KI.Eqs
import proofs.«407445_j30339648979088_1_alg».proof.Proof.KI.P1

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open scoped BigOperators

variable (V : (c : Dev nD) → (b : Ref sig .tc) → Buf (Elt Ideal) ((c : Thread nD τ).loc b))

theorem idx_facts3 (t : Fin cfg3.N) :
    win3_0.index t (0 : Fin 2) = t.val / 625 ∧ win3_1.index t (1 : Fin 2) = t.val % 625 ∧ win3_2.index t (0 : Fin 2) = t.val % 625
    ∧ win3_3.index t (0 : Fin 2) = t.val / 625 ∧ win3_4.index t (0 : Fin 2) = t.val / 625 ∧ win3_8.index t (0 : Fin 2) = t.val / 625 := by
  have hN : t.val < 25000 := lt_of_lt_of_eq t.isLt N_3
  have h0 : (BitVec.ofNat 32 ((grid3.coords t) 0).val).toNat = t.val / 625 := by
    rw [coord3_0, BitVec.toNat_ofNat]; omega
  have h1 : (BitVec.ofNat 32 ((grid3.coords t) 1).val).toNat = t.val % 625 := by
    rw [coords3_1, BitVec.toNat_ofNat]; omega
  exact ⟨h0, h1, h1, h0, h0, h0⟩

theorem iblk3_0_apply (c : Dev nD) (t : Fin cfg3.N) (r : Fin 2560) (i : Fin 102400) (hi : i.val = 2560 * (t.val / 625) + r.val) :
    iblk3 V c 0 t (ix2 r (0 : Fin 1)) = V c main_v20 (ix2 i (0 : Fin 1)) := by
  have := idx_facts3 t
  exact congrArg (V c main_v20) (Shape.idx_ext₂ (by show win3_0.index t (0 : Fin 2) * 2560 + 1 * r.val = i.val; omega)
    (by show 0 * 1 + 1 * 0 = 0; omega))

theorem iblk3_1_apply (c : Dev nD) (t : Fin cfg3.N) (l : Fin 2560) (e : Fin 1600000) (he : e.val = 2560 * (t.val % 625) + l.val) :
    iblk3 V c 1 t (ix2 (0 : Fin 1) l) = V c main_v5 (ix2 (0 : Fin 1) e) := by
  have := idx_facts3 t
  exact congrArg (V c main_v5) (Shape.idx_ext₂ (by show 0 * 1 + 1 * 0 = 0; omega)
    (by show win3_1.index t (1 : Fin 2) * 2560 + 1 * l.val = e.val; omega))

theorem iblk3_2_apply (c : Dev nD) (t : Fin cfg3.N) (l : Fin 2560) (q : Fin 128) (e : Fin 1600000) (he : e.val = 2560 * (t.val % 625) + l.val) :
    iblk3 V c 2 t (ix2 l q) = V c main_v34 (ix2 e q) := by
  have := idx_facts3 t
  exact congrArg (V c main_v34) (Shape.idx_ext₂ (by show win3_2.index t (0 : Fin 2) * 2560 + 1 * l.val = e.val; omega)
    (by show 0 * 128 + 1 * q.val = q.val; omega))

theorem iblk3_3_apply (c : Dev nD) (t : Fin cfg3.N) (r : Fin 2560) (i : Fin 102400) (hi : i.val = 2560 * (t.val / 625) + r.val) :
    iblk3 V c 3 t (ix2 r (0 : Fin 1)) = V c main_v25 (ix2 i (0 : Fin 1)) := by
  have := idx_facts3 t
  exact congrArg (V c main_v25) (Shape.idx_ext₂ (by show win3_3.index t (0 : Fin 2) * 2560 + 1 * r.val = i.val; omega)
    (by show 0 * 1 + 1 * 0 = 0; omega))

theorem iblk3_4_apply (c : Dev nD) (t : Fin cfg3.N) (r : Fin 2560) (k : Fin 128) (i : Fin 102400) (hi : i.val = 2560 * (t.val / 625) + r.val) :
    iblk3 V c 4 t (ix2 r k) = V c main_v30 (ix2 i k) := by
  have := idx_facts3 t
  exact congrArg (V c main_v30) (Shape.idx_ext₂ (by show win3_4.index t (0 : Fin 2) * 2560 + 1 * r.val = i.val; omega)
    (by show 0 * 128 + 1 * k.val = k.val; omega))

theorem iblk3_5_apply (c : Dev nD) (t : Fin cfg3.N) (y : S128x128.Idx) : iblk3 V c 5 t y = V c main_v31 y :=
  congrArg (V c main_v31) (Shape.idx_ext₂ (by show 0 * 128 + 1 * (y 0).val = (y 0).val; omega)
    (by show 0 * 128 + 1 * (y 1).val = (y 1).val; omega))

theorem iblk3_6_apply (c : Dev nD) (t : Fin cfg3.N) (y : S128x128.Idx) : iblk3 V c 6 t y = V c main_v32 y :=
  congrArg (V c main_v32) (Shape.idx_ext₂ (by show 0 * 128 + 1 * (y 0).val = (y 0).val; omega)
    (by show 0 * 128 + 1 * (y 1).val = (y 1).val; omega))

theorem iblk3_7_apply (c : Dev nD) (t : Fin cfg3.N) (y : S1x128.Idx) : iblk3 V c 7 t y = V c main_v33 y :=
  congrArg (V c main_v33) (Shape.idx_ext₂ (by show 0 * 1 + 1 * (y 0).val = (y 0).val; omega)
    (by show 0 * 128 + 1 * (y 1).val = (y 1).val; omega))

abbrev term3 (c : Dev nD) (i : Fin 102400) (q : Fin 128) (e : Fin 1600000) : EReal :=
  (if V c main_v20 (ix2 i (0 : Fin 1)) = V c main_v5 (ix2 (0 : Fin 1) e) then (1 : EReal) else 0) * V c main_v34 (ix2 e q)

def tile3 (c : Dev nD) (i : Fin 102400) (q : Fin 128) (s : ℕ) : EReal :=
  ∑ l : Fin 2560, (if h : 2560 * s + l.val < 1600000 then term3 V c i q ⟨2560 * s + l.val, h⟩ else 0)

theorem pay2_point3 (c : Dev nD) (t : Fin cfg3.N) (a : Vec Ideal S2560x128 .f32) (y : S2560x128.Idx) (i : Fin 102400)
    (hi : i.val = 2560 * (t.val / 625) + (y 0).val) :
    k1_pay2 (iblk3 V c 0 t) (iblk3 V c 1 t) a (iblk3 V c 2 t) y = a y + tile3 V c i (y 1) (t.val % 625) := by
  refine (pay2_apply0 _ _ _ _ y).trans ?_
  congr 1
  unfold tile3
  refine Finset.sum_congr rfl fun l _ => ?_
  have hl : 2560 * (t.val % 625) + l.val < 1600000 := by have := l.isLt; omega
  rw [dif_pos hl, iblk3_0_apply V c t (y 0) i hi, iblk3_1_apply V c t l ⟨_, hl⟩ rfl, iblk3_2_apply V c t l (y 1) ⟨_, hl⟩ rfl]

theorem acc3_apply (c : Dev nD) : ∀ (n : ℕ) (hn : n < cfg3.N) (y : S2560x128.Idx) (i : Fin 102400)
    (hi : i.val = 2560 * (n / 625) + (y 0).val),
    acc3 V c n hn y = ∑ s ∈ Finset.range (n % 625 + 1), tile3 V c i (y 1) s := by
  intro n
  induction n using Nat.strong_induction_on with
  | _ n ih =>
    intro hn y i hi
    by_cases h0 : n % 625 = 0
    · rw [congrFun (acc3_first V c ⟨n, hn⟩ h0) y, pay2_point3 V c ⟨n, hn⟩ _ y i hi, h0, Finset.sum_range_one]
      exact (congrArg (· + _) (pay1_apply0 y)).trans (zero_add _)
    · rw [congrFun (acc3_next V c ⟨n, hn⟩ h0) y, pay2_point3 V c ⟨n, hn⟩ _ y i hi,
        ih (n - 1) (by omega) _ y i (by rw [hi]; omega), show (n - 1) % 625 + 1 = n % 625 from by omega, Finset.sum_range_succ]

def layer3 (c : Dev nD) (w25 : S102400x1.Idx → EReal) (tbl : S102400x128.Idx → EReal) (Wl Wr : S128x128.Idx → EReal)
    (b : S1x128.Idx → EReal) : S102400x128.Idx → EReal := fun i =>
  max (((∑ k : Fin 128, ((∑ e : Fin 1600000, term3 V c (i 0) k e) * w25 (ix2 (i 0) (0 : Fin 1))) * Wl (ix2 k (i 1)))
      + ∑ k : Fin 128, tbl (ix2 (i 0) k) * Wr (ix2 k (i 1))) + b (ix2 (0 : Fin 1) (i 1))) 0

def G3 (c : Dev nD) : S102400x128.Idx → EReal :=
  layer3 V c (V c main_v25) (V c main_v30) (V c main_v31) (V c main_v32) (V c main_v33)

theorem flushed3_eq (c : Dev nD) (t : Fin cfg3.N) (hf : (cfg3.win 8).flush t = true) :
    (dat3 (F := Ideal) V c).flushed 8 t = ((cfg3.win 8).blk t).view.read (Elt Ideal) (G3 V c) := by
  have h624 : t.val % 625 = 624 := (flush3_8 t).mp hf
  have hN : t.val < 25000 := lt_of_lt_of_eq t.isLt N_3
  have := idx_facts3 t
  show (cfg3.win 8).cut (grid3.coords t) ((dat3 V c).after 8 t) = _
  rw [after3_8]
  refine funext fun (y : S2560x128.Idx) => ?_
  have hy0 := idx2_lt0 y
  have hi : 2560 * (t.val / 625) + (y 0).val < 102400 := by omega
  rw [View.read_apply, show ((cfg3.win 8).blk t).view.emb y = ix2 (⟨_, hi⟩ : Fin 102400) (y 1) from Shape.idx_ext₂
    (by show win3_8.index t (0 : Fin 2) * 2560 + 1 * (y 0).val = 2560 * (t.val / 625) + (y 0).val; omega)
    (by show 0 * 128 + 1 * (y 1).val = (y 1).val; omega)]
  refine Eq.trans ?_ (cast_eq _ _).symm
  show k1_pay3 (acc3 V c t.val t.isLt) (iblk3 V c 3 t) (iblk3 V c 5 t) (iblk3 V c 4 t) (iblk3 V c 6 t) (iblk3 V c 7 t) y = _
  unfold G3 layer3
  exact pay3_apply1 _ _ _ _ _ _ y _ _ _ _ _ _
    (fun k => by rw [acc3_apply V c t.val t.isLt (ix2 (y 0) k) ⟨_, hi⟩ rfl, h624]; exact sum_tiles 625 rfl (term3 V c ⟨_, hi⟩ k))
    (iblk3_3_apply V c t (y 0) ⟨_, hi⟩ rfl) (fun k => iblk3_5_apply V c t _) (fun k => iblk3_4_apply V c t (y 0) k ⟨_, hi⟩ rfl)
    (fun k => iblk3_6_apply V c t _) (iblk3_7_apply V c t _)

theorem cover3 (i : S102400x128.Idx) : ∃ t : Fin cfg3.N, (cfg3.win 8).flush t = true ∧ i ∈ ((cfg3.win 8).blk t).view.set := by
  have hi0 := idx2_lt0 i
  have hi1 := idx2_lt1 i
  have hN : cfg3.N = 25000 := N_3
  obtain ⟨t, ht⟩ : ∃ t : Fin cfg3.N, t.val = 625 * ((i 0).val / 2560) + 624 := ⟨⟨_, by omega⟩, rfl⟩
  have := idx_facts3 t
  refine ⟨t, (flush3_8 t).mpr (by omega), ?_⟩
  show i ∈ ((View.whole main_v35).slice (win3_8.rect t)).set
  rw [View.set_slice_whole, Rect.mem_set_unit]
  intro a
  match a with
  | ⟨0, _⟩ => show win3_8.index t (0 : Fin 2) * 2560 ≤ (i 0).val ∧ (i 0).val < win3_8.index t (0 : Fin 2) * 2560 + 2560; omega
  | ⟨1, _⟩ => show 0 * 128 ≤ (i 1).val ∧ (i 1).val < 0 * 128 + 128; omega

theorem out3_apply (c : Dev nD) :
    LayerEq (V c main_v20) (V c main_v5) (V c main_v34) (V c main_v25) (V c main_v30) (V c main_v31) (V c main_v32) (V c main_v33)
      ((dat3 (F := Ideal) V c).arrAt 8 cfg3.N) := by
  intro n j
  rw [(dat3 V c).arrAt_eq_of_cover 8 (G3 V c) (fun t hf => flushed3_eq V c t hf) cover3]
  unfold G3 layer3
  rfl

end Cert.KernelIdeal.Hand

end
-- ==== Proof.KI.Val4.lean ====
import proofs.«407445_j30339648979088_1_alg».proof.Proof.KI.R4
import proofs.«407445_j30339648979088_1_alg».proof.Proof.KI.Eqs
import proofs.«407445_j30339648979088_1_alg».proof.Proof.KI.P0
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

section Val4
open Idealize.ShloMosaic.ValueIdx
open scoped BigOperators

abbrev D4 : DotDims S2560x128 S128x2 S2560x2 := dot_S2560x128_S128x2_S2560x2_1_0_0_1_n_n

theorem pay4_apply (x0 : Vec Ideal S2560x128 .bf16) (x1 : Vec Ideal S128x2 .bf16) (x2 : Vec Ideal S1x2 .f32) (y : S2560x2.Idx) :
    k4_pay1 (F := Ideal) x0 x1 x2 y = (∑ k : Fin 128, x0 (ix2 (y 0) k) * x1 (ix2 k (y 1))) + x2 (ix2 (0 : Fin 1) (y 1)) := by
  unfold k4_pay1
  simp only [shapeCast_self]
  rw [addf_apply]
  simp only [matmul]
  congr 1
  · exact mm_apply D4 128 rfl rfl _ _ y _ _ (fun k => congrArg x0 (Shape.idx_ext₂ rfl rfl)) fun k => congrArg x1 (Shape.idx_ext₂ rfl rfl)
  · refine broadcastTo_apply x2 _ y (ix2 (0 : Fin 1) (y 1)) (fun a => ?_)
    match a with
    | ⟨0, _⟩ => rfl
    | ⟨1, _⟩ => rfl

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable {F : FTy → Type} [FloatOps F]
variable (V : (c : Dev nD) → (b : Ref sig .tc) → Buf (Elt F) ((c : Thread nD τ).loc b))

theorem iblk4_0_apply (c : Dev nD) (t : Fin cfg4.N) (y : S2560x128.Idx) (i : S102400x128.Idx)
    (h0 : (i 0).val = t.val * 2560 + (y 0).val) (h1 : (i 1).val = (y 1).val) :
    iblk4 V c 0 t y = V c main_v35 i := by
  obtain ⟨e0, e1, -⟩ := idx_facts4 t
  show V c main_v35 (((cfg4.win 0).blk t).view.emb y) = V c main_v35 i
  refine congrArg (V c main_v35) (funext fun a => Fin.ext ?_)
  match a with
  | ⟨0, _⟩ => show win4_0.index t (0 : Fin 2) * 2560 + 1 * (y 0).val = (i 0).val; omega
  | ⟨1, _⟩ => show win4_0.index t (1 : Fin 2) * 128 + 1 * (y 1).val = (i 1).val; omega

theorem iblk4_1_apply (c : Dev nD) (t : Fin cfg4.N) (y i : S128x2.Idx) (h0 : (i 0).val = (y 0).val) (h1 : (i 1).val = (y 1).val) :
    iblk4 V c 1 t y = V c main_v36 i := by
  obtain ⟨-, -, e0, e1, -⟩ := idx_facts4 t
  show V c main_v36 (((cfg4.win 1).blk t).view.emb y) = V c main_v36 i
  refine congrArg (V c main_v36) (funext fun a => Fin.ext ?_)
  match a with
  | ⟨0, _⟩ => show win4_1.index t (0 : Fin 2) * 128 + 1 * (y 0).val = (i 0).val; omega
  | ⟨1, _⟩ => show win4_1.index t (1 : Fin 2) * 2 + 1 * (y 1).val = (i 1).val; omega

theorem iblk4_2_apply (c : Dev nD) (t : Fin cfg4.N) (y i : S1x2.Idx) (h0 : (i 0).val = (y 0).val) (h1 : (i 1).val = (y 1).val) :
    iblk4 V c 2 t y = V c main_v37 i := by
  obtain ⟨-, -, -, -, e0, e1, -⟩ := idx_facts4 t
  show V c main_v37 (((cfg4.win 2).blk t).view.emb y) = V c main_v37 i
  refine congrArg (V c main_v37) (funext fun a => Fin.ext ?_)
  match a with
  | ⟨0, _⟩ => show win4_2.index t (0 : Fin 2) * 1 + 1 * (y 0).val = (i 0).val; omega
  | ⟨1, _⟩ => show win4_2.index t (1 : Fin 2) * 2 + 1 * (y 1).val = (i 1).val; omega

end Val4

section Val4Ideal
open Idealize.ShloMosaic.ValueIdx
open scoped BigOperators

def G4 (tbl : S102400x128.Idx → EReal) (W : S128x2.Idx → EReal) (b : S1x2.Idx → EReal) : S102400x2.Idx → EReal := fun i =>
  (∑ k : Fin 128, tbl (ix2 (i 0) k) * W (ix2 k (i 1))) + b (ix2 (0 : Fin 1) (i 1))

theorem G4_of (x0 : S2560x128.Idx → EReal) (x1 : S128x2.Idx → EReal) (x2 : S1x2.Idx → EReal)
    (tbl : S102400x128.Idx → EReal) (W : S128x2.Idx → EReal) (b : S1x2.Idx → EReal) (y : S2560x2.Idx) (i : S102400x2.Idx)
    (hx0 : ∀ k : Fin 128, x0 (ix2 (y 0) k) = tbl (ix2 (i 0) k)) (hx1 : ∀ k : Fin 128, x1 (ix2 k (y 1)) = W (ix2 k (i 1)))
    (hx2 : x2 (ix2 (0 : Fin 1) (y 1)) = b (ix2 (0 : Fin 1) (i 1))) :
    (∑ k : Fin 128, x0 (ix2 (y 0) k) * x1 (ix2 k (y 1))) + x2 (ix2 (0 : Fin 1) (y 1)) = G4 tbl W b i := by
  unfold G4
  rw [hx2]
  congr 1
  exact Finset.sum_congr rfl fun k _ => by rw [hx0 k, hx1 k]

variable (V : (c : Dev nD) → (b : Ref sig .tc) → Buf (Elt Ideal) ((c : Thread nD τ).loc b))

theorem flushed4_eq (c : Dev nD) (t : Fin cfg4.N) :
    (dat4 (F := Ideal) V c).flushed 3 t
      = ((cfg4.win 3).blk t).view.read (Elt Ideal) (G4 (V c main_v35) (V c main_v36) (V c main_v37)) := by
  show (cfg4.win 3).cut (grid4.coords t) ((dat4 V c).after 3 t) = _
  rw [after4_3]
  funext y
  show k4_pay1 (iblk4 V c 0 t) (iblk4 V c 1 t) (iblk4 V c 2 t) y
    = G4 (V c main_v35) (V c main_v36) (V c main_v37) (((cfg4.win 3).blk t).view.emb y)
  refine (pay4_apply _ _ _ y).trans ?_
  obtain ⟨-, -, -, -, -, -, e0, e1⟩ := idx_facts4 t
  have he0 : ((((cfg4.win 3).blk t).view.emb y) 0).val = t.val * 2560 + (y 0).val := by
    show win4_3.index t (0 : Fin 2) * 2560 + 1 * (y 0).val = _; omega
  have he1 : ((((cfg4.win 3).blk t).view.emb y) 1).val = (y 1).val := by
    show win4_3.index t (1 : Fin 2) * 2 + 1 * (y 1).val = _; omega
  exact G4_of (iblk4 V c 0 t) (iblk4 V c 1 t) (iblk4 V c 2 t) (V c main_v35) (V c main_v36) (V c main_v37) y _
    (fun k => iblk4_0_apply V c t _ _ he0 rfl) (fun k => iblk4_1_apply V c t _ _ rfl he1) (iblk4_2_apply V c t _ _ rfl he1)

theorem mem_blk4 (t : Fin cfg4.N) (i : S102400x2.Idx) :
    i ∈ ((cfg4.win 3).blk t).view.set ↔ ∀ a : Fin 2, win4_3.index t a * S2560x2.size a ≤ (i a).val ∧ (i a).val < win4_3.index t a * S2560x2.size a + S2560x2.size a := by
  show i ∈ ((View.whole main_v38).slice (win4_3.rect t)).set ↔ _
  rw [View.set_slice_whole, Rect.mem_set_unit]
  exact Iff.rfl

theorem cover4 (i : S102400x2.Idx) : ∃ t : Fin cfg4.N, (cfg4.win 3).flush t = true ∧ i ∈ ((cfg4.win 3).blk t).view.set := by
  have hi0 : (i 0).val < 102400 := (i 0).isLt
  have hi1 : (i 1).val < 2 := (i 1).isLt
  have ht : (i 0).val / 2560 < cfg4.N := by show (i 0).val / 2560 < 40; omega
  refine ⟨⟨(i 0).val / 2560, ht⟩, flush4_3 _, ?_⟩
  rw [mem_blk4]
  obtain ⟨-, -, -, -, -, -, e0, e1⟩ := idx_facts4 ⟨(i 0).val / 2560, ht⟩
  intro a
  match a with
  | ⟨0, _⟩ =>
    show win4_3.index ⟨(i 0).val / 2560, ht⟩ (0 : Fin 2) * 2560 ≤ (i 0).val
      ∧ (i 0).val < win4_3.index ⟨(i 0).val / 2560, ht⟩ (0 : Fin 2) * 2560 + 2560
    rw [e0]; show (i 0).val / 2560 * 2560 ≤ (i 0).val ∧ (i 0).val < (i 0).val / 2560 * 2560 + 2560; omega
  | ⟨1, _⟩ =>
    show win4_3.index ⟨(i 0).val / 2560, ht⟩ (1 : Fin 2) * 2 ≤ (i 1).val
      ∧ (i 1).val < win4_3.index ⟨(i 0).val / 2560, ht⟩ (1 : Fin 2) * 2 + 2
    rw [e1]; omega

theorem out4_apply (c : Dev nD) :
    HeadEq (V c main_v35) (V c main_v36) (V c main_v37) ((dat4 (F := Ideal) V c).arrAt 3 cfg4.N) := by
  intro n j
  have h := (dat4 (F := Ideal) V c).arrAt_eq_of_cover 3 (G4 (V c main_v35) (V c main_v36) (V c main_v37))
    (fun t _ => flushed4_eq V c t) cover4
  exact congrFun h (ix2 n j)

end Val4Ideal

end Cert.KernelIdeal.Hand

end
-- ==== Proof.KI.Host.lean ====
import proofs.«407445_j30339648979088_1_alg».proof.Proof.Gen.KernelIdeal.Regions
import proofs.«407445_j30339648979088_1_alg».proof.Proof.Spec
import Idealize.ShloMosaic.Lib.Pipeline.Value
import Idealize.ShloMosaic.Lib.IdealHost
import Idealize.ShloMosaic.Lib.ValueLayout
import Idealize.ShloMosaic.Lib.StableHlo.Run

namespace Cert.Layout

open Idealize.ShloMosaic Idealize.ShloMosaic.ValueIdx

variable {α : Type}

theorem shapeCast_col_apply {n : Nat} (x : (⟨1, ![n]⟩ : Shape).Idx → α)
    (h : (⟨1, ![n]⟩ : Shape).ShapeCasts ⟨2, ![n, 1]⟩) (e : Fin n) :
    shapeCast ⟨2, ![n, 1]⟩ x h (ix2 e (0 : Fin 1)) = x (ix1 e) := by
  refine shapeCast_apply x h _ _ ?_
  rw [Shape.rowMajor_val_one, Shape.rowMajor_val_two]
  show e.val = e.val * 1 + 0
  omega

theorem broadcast_col_apply {n : Nat} (x : (⟨1, ![n]⟩ : Shape).Idx → α) (hn : n ≠ 1)
    (h : (⟨1, ![n]⟩ : Shape).BroadcastsInDim ⟨2, ![n, 1]⟩ (![0] : Fin 1 → Fin 2)) (e : Fin n) :
    broadcastInDim ⟨2, ![n, 1]⟩ (![0] : Fin 1 → Fin 2) h x (ix2 e (0 : Fin 1)) = x (ix1 e) := by
  refine broadcastInDim_apply _ h x _ _ fun a => ?_
  match a with
  | ⟨0, _⟩ =>
    show e.val = if n = 1 then 0 else e.val
    rw [if_neg hn]

theorem concat_rows_upper {p r t C : Nat} (a : (⟨2, ![p, C]⟩ : Shape).Idx → α) (b : (⟨2, ![r, C]⟩ : Shape).Idx → α)
    (h : Shape.Concatenates [(⟨2, ![p, C]⟩ : Shape), ⟨2, ![r, C]⟩] ⟨2, ![t, C]⟩ 0)
    (n : Fin t) (hn : n.val < p) (q : Fin C) :
    concatenate ⟨2, ![t, C]⟩ 0 [⟨⟨2, ![p, C]⟩, a⟩, ⟨⟨2, ![r, C]⟩, b⟩] h (ix2 n q) = a (ix2 ⟨n.val, hn⟩ q) :=
  concatenate_pair_apply_left (0 : Fin 2) a b h (ix2 n q) rfl (ix2 ⟨n.val, hn⟩ q) fun b' => match b' with
    | ⟨0, _⟩ => rfl
    | ⟨1, _⟩ => rfl

end Cert.Layout

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen
open scoped BigOperators

variable (m : (ℓ : Loc nD τ sig) → Buf (Elt Ideal) ℓ) (outs : Gen.Outs (F := Ideal))

abbrev a0 (c : Dev nD) : S100000x128.Idx → EReal := m ((c : Thread nD τ).loc main_arg0)
abbrev a1 (c : Dev nD) : S2x1600000.Idx → BitVec 32 := m ((c : Thread nD τ).loc main_arg1)
abbrev a2 (c : Dev nD) : S128x128.Idx → EReal := m ((c : Thread nD τ).loc main_arg2)
abbrev a3 (c : Dev nD) : S128x128.Idx → EReal := m ((c : Thread nD τ).loc main_arg3)
abbrev a4 (c : Dev nD) : S128.Idx → EReal := m ((c : Thread nD τ).loc main_arg4)
abbrev a5 (c : Dev nD) : S128x128.Idx → EReal := m ((c : Thread nD τ).loc main_arg5)
abbrev a6 (c : Dev nD) : S128x128.Idx → EReal := m ((c : Thread nD τ).loc main_arg6)
abbrev a7 (c : Dev nD) : S128.Idx → EReal := m ((c : Thread nD τ).loc main_arg7)
abbrev a8 (c : Dev nD) : S128x2.Idx → EReal := m ((c : Thread nD τ).loc main_arg8)
abbrev a9 (c : Dev nD) : S2.Idx → EReal := m ((c : Thread nD τ).loc main_arg9)

theorem v2_apply (c : Dev nD) (e : Fin 1600000) :
    (Gen.V1 m c main_v2 : S1600000x1.Idx → BitVec 32) (ix2 e (0 : Fin 1)) = a1 m c (ix2 (0 : Fin 2) e) := by
  dsimp only [Gen.V1, Gen.hostOps0]
  after_results
  exact (Cert.Layout.shapeCast_col_apply _ _ e).trans
    ((shapeCast_1a_a_apply _ _ e).trans (slice2_axis0_apply 0 _ _ (0 : Fin 1) e 0 rfl))

theorem v5_apply (c : Dev nD) (e : Fin 1600000) :
    (Gen.V1 m c main_v5 : S1x1600000.Idx → BitVec 32) (ix2 (0 : Fin 1) e) = a1 m c (ix2 (1 : Fin 2) e) := by
  dsimp only [Gen.V1, Gen.hostOps0]
  after_results
  exact (shapeCast_a_1a_apply _ _ 0 e).trans
    ((shapeCast_1a_a_apply _ _ e).trans (slice2_axis0_apply 1 _ _ (0 : Fin 1) e 1 rfl))

theorem v18_apply (c : Dev nD) (n : Fin 102400) :
    (Gen.V1 m c main_v18 : S1x102400.Idx → BitVec 32) (ix2 (0 : Fin 1) n) = BitVec.ofNat 32 n.val := by
  dsimp only [Gen.V1, Gen.hostOps0]
  after_results
  exact (shapeCast_a_1a_apply _ _ 0 n).trans (iotaInDim_apply 32 _ _)

theorem v20_apply (c : Dev nD) (n : Fin 102400) :
    (Gen.V1 m c main_v20 : S102400x1.Idx → BitVec 32) (ix2 n (0 : Fin 1)) = BitVec.ofNat 32 n.val := by
  dsimp only [Gen.V1, Gen.hostOps0]
  after_results
  exact (Cert.Layout.shapeCast_col_apply _ _ n).trans (iotaInDim_apply 32 _ _)

theorem v23_apply_lt (c : Dev nD) (n : Fin 102400) (hn : n.val < 100000) (q : Fin 128) :
    (Gen.V1 m c main_v23 : S102400x128.Idx → EReal) (ix2 n q) = a0 m c (ix2 ⟨n.val, hn⟩ q) := by
  dsimp only [Gen.V1, Gen.hostOps0]
  after_results
  refine (truncf_apply _ bitsLt_bf16_f32 _).trans ?_
  exact Cert.Layout.concat_rows_upper _ _ concatenates_S100000x128_S2400x128_S102400x128_d0 n hn q

theorem v26_apply (c : Dev nD) (k j : Fin 128) :
    (Gen.V1 m c main_v26 : S128x128.Idx → EReal) (ix2 k j) = a2 m c (ix2 k j) := by
  dsimp only [Gen.V1, Gen.hostOps0]
  after_results
  rfl
theorem v27_apply (c : Dev nD) (k j : Fin 128) :
    (Gen.V1 m c main_v27 : S128x128.Idx → EReal) (ix2 k j) = a3 m c (ix2 k j) := by
  dsimp only [Gen.V1, Gen.hostOps0]
  after_results
  rfl
theorem v28_apply (c : Dev nD) (j : Fin 128) :
    (Gen.V1 m c main_v28 : S1x128.Idx → EReal) (ix2 (0 : Fin 1) j) = a4 m c (ix1 j) := by
  dsimp only [Gen.V1, Gen.hostOps0]
  after_results
  exact shapeCast_a_1a_apply _ _ 0 j

theorem invDeg_of_scatter (dst : Fin 1600000 → BitVec 32) (z : FVec Ideal S100000 .f32) (idx : IVec S1600000x1 32)
    (u : FVec Ideal S1600000 .f32) (one : FVec Ideal S100000 .f32)
    (hz : ∀ j, z j = 0) (hu : ∀ j, u j = 1) (h1 : ∀ j, one j = 1)
    (hidx : ∀ e : Fin 1600000, idx (ix2 e (0 : Fin 1)) = dst e) (i : Fin 100000) :
    Host.divf one (maximumf (Host.scatterAdd scatter_S100000_S1600000x1_S1600000_n_0_0_1 z idx u) one) (ix1 i)
      = Cert.Spec.invDeg dst i := by
  rw [hostDivf_apply, maximumf_apply, h1]
  unfold Cert.Spec.invDeg
  refine congrArg (fun t => Ideal.div 1 (max t 1)) ?_
  show Ideal.hostScatterAdd GCN.GS.sd1 z idx u (ix1 i) = _
  rw [GCN.GS.scatter1_apply, hz, zero_add]
  unfold Cert.Spec.deg Cert.Spec.into
  have hf : (Finset.univ.filter fun e : Fin 1600000 => (idx (ix2 e (0 : Fin 1))).toInt = (i.val : ℤ))
      = Finset.univ.filter fun e : Fin 1600000 => (dst e).toInt = (i.val : ℤ) :=
    Finset.filter_congr fun e _ => by rw [hidx e]
  rw [hf]
  exact Finset.sum_congr rfl fun e _ => hu _

theorem bcast_one (T : Shape) (h : S_.BroadcastsInDim T (![] : Fin 0 → Fin T.rank)) (j : T.Idx) :
    broadcastInDim T ![] h (constant (F := Ideal) S_ .f32 0x3F800000#32) j = (1 : EReal) := by
  rw [broadcastInDim_scalar_apply, constant_apply, Ideal.ofBits_one_f32]
theorem bcast_zero (T : Shape) (h : S_.BroadcastsInDim T (![] : Fin 0 → Fin T.rank)) (j : T.Idx) :
    broadcastInDim T ![] h (constant (F := Ideal) S_ .f32 0x00000000#32) j = (0 : EReal) := by
  rw [broadcastInDim_scalar_apply, constant_apply, Ideal.ofBits_zero_f32]

theorem v25_apply_lt (c : Dev nD) (n : Fin 102400) (hn : n.val < 100000) :
    (Gen.V1 m c main_v25 : S102400x1.Idx → EReal) (ix2 n (0 : Fin 1))
      = Cert.Spec.invDeg (fun e => a1 m c (ix2 (1 : Fin 2) e)) ⟨n.val, hn⟩ := by
  dsimp only [Gen.V1, Gen.hostOps0]
  after_results
  refine (Cert.Layout.concat_rows_upper _ _ concatenates_S100000x1_S2400x1_S102400x1_d0 n hn (0 : Fin 1)).trans ?_
  refine (Cert.Layout.shapeCast_col_apply _ shapeCasts_S100000_S100000x1 ⟨n.val, hn⟩).trans ?_
  exact invDeg_of_scatter (fun e => a1 m c (ix2 (1 : Fin 2) e)) _ _ _ _
    (bcast_zero _ _) (bcast_one _ _) (bcast_one _ _)
    (fun e => (Cert.Layout.broadcast_col_apply _ (by decide) bcast_S1600000_S1600000x1_0 e).trans
      ((shapeCast_1a_a_apply _ shapeCasts_S1x1600000_S1600000 e).trans
        (slice2_axis0_apply 1 _ slices_S2x1600000_S1x1600000_1_0 (0 : Fin 1) e 1 rfl)))
    ⟨n.val, hn⟩

theorem V3_launch (c : Dev nD) (r : Ref sig .tc) (h3 : r ∉ ([main_v30] : List (Ref sig .tc)))
    (h2 : r ∉ ([main_v29] : List (Ref sig .tc))) (h1 : r ∉ hostOps0_W) :
    Gen.V3 m outs c r = m ((c : Thread nD τ).loc r) :=
  (V3_of m outs c r h3).trans ((V2_of m outs c r h2).trans ((V1_of m c r h1).trans rfl))

theorem V6_launch (c : Dev nD) (r : Ref sig .tc) (h6 : r ∉ ([main_v35] : List (Ref sig .tc)))
    (h5 : r ∉ ([main_v34] : List (Ref sig .tc))) (h4 : r ∉ hostOps2_W) (h3 : r ∉ ([main_v30] : List (Ref sig .tc)))
    (h2 : r ∉ ([main_v29] : List (Ref sig .tc))) (h1 : r ∉ hostOps0_W) :
    Gen.V6 m outs c r = m ((c : Thread nD τ).loc r) :=
  (V6_of m outs c r h6).trans ((V5_of m outs c r h5).trans ((V4_of m outs c r h4).trans (V3_launch m outs c r h3 h2 h1)))

theorem V4_V1 (c : Dev nD) (r : Ref sig .tc) (h4 : r ∉ hostOps2_W) (h3 : r ∉ ([main_v30] : List (Ref sig .tc)))
    (h2 : r ∉ ([main_v29] : List (Ref sig .tc))) : Gen.V4 m outs c r = Gen.V1 m c r :=
  (V4_of m outs c r h4).trans ((V3_of m outs c r h3).trans (V2_of m outs c r h2))

theorem V5_V1 (c : Dev nD) (r : Ref sig .tc) (h5 : r ∉ ([main_v34] : List (Ref sig .tc))) (h4 : r ∉ hostOps2_W)
    (h3 : r ∉ ([main_v30] : List (Ref sig .tc))) (h2 : r ∉ ([main_v29] : List (Ref sig .tc))) :
    Gen.V5 m outs c r = Gen.V1 m c r :=
  (V5_of m outs c r h5).trans (V4_V1 m outs c r h4 h3 h2)

theorem V2_v29 (c : Dev nD) : Gen.V2 m outs c main_v29 = outs 2 main_v29 c := Function.update_self _ _ _
theorem V4_v30 (c : Dev nD) : Gen.V4 m outs c main_v30 = outs 3 main_v30 c :=
  (V4_of m outs c main_v30 (by decide)).trans (Function.update_self _ _ _)
theorem V5_v30 (c : Dev nD) : Gen.V5 m outs c main_v30 = outs 3 main_v30 c :=
  (V5_of m outs c main_v30 (by decide)).trans (V4_v30 m outs c)
theorem V5_v34 (c : Dev nD) : Gen.V5 m outs c main_v34 = outs 5 main_v34 c := Function.update_self _ _ _
theorem V7_v35 (c : Dev nD) : Gen.V7 m outs c main_v35 = outs 6 main_v35 c :=
  (V7_of m outs c main_v35 (by decide)).trans (Function.update_self _ _ _)

theorem v31_apply (c : Dev nD) (k j : Fin 128) :
    (Gen.V4 m outs c main_v31 : S128x128.Idx → EReal) (ix2 k j) = a5 m c (ix2 k j) := by
  dsimp only [Gen.V4, Gen.hostOps2]
  after_results
  refine (truncf_apply _ bitsLt_bf16_f32 _).trans ?_
  exact congrFun (V3_launch m outs c main_arg5 (by decide) (by decide) (by decide)) (ix2 k j)
theorem v32_apply (c : Dev nD) (k j : Fin 128) :
    (Gen.V4 m outs c main_v32 : S128x128.Idx → EReal) (ix2 k j) = a6 m c (ix2 k j) := by
  dsimp only [Gen.V4, Gen.hostOps2]
  after_results
  refine (truncf_apply _ bitsLt_bf16_f32 _).trans ?_
  exact congrFun (V3_launch m outs c main_arg6 (by decide) (by decide) (by decide)) (ix2 k j)
theorem v33_apply (c : Dev nD) (j : Fin 128) :
    (Gen.V4 m outs c main_v33 : S1x128.Idx → EReal) (ix2 (0 : Fin 1) j) = a7 m c (ix1 j) := by
  dsimp only [Gen.V4, Gen.hostOps2]
  after_results
  refine (shapeCast_a_1a_apply _ _ 0 j).trans ?_
  exact congrFun (V3_launch m outs c main_arg7 (by decide) (by decide) (by decide)) (ix1 j)

theorem v36_apply (c : Dev nD) (k : Fin 128) (j : Fin 2) :
    (Gen.V7 m outs c main_v36 : S128x2.Idx → EReal) (ix2 k j) = a8 m c (ix2 k j) := by
  dsimp only [Gen.V7, Gen.hostOps4]
  after_results
  refine (truncf_apply _ bitsLt_bf16_f32 _).trans ?_
  exact congrFun (V6_launch m outs c main_arg8 (by decide) (by decide) (by decide) (by decide) (by decide) (by decide)) (ix2 k j)
theorem v37_apply (c : Dev nD) (j : Fin 2) :
    (Gen.V7 m outs c main_v37 : S1x2.Idx → EReal) (ix2 (0 : Fin 1) j) = a9 m c (ix1 j) := by
  dsimp only [Gen.V7, Gen.hostOps4]
  after_results
  refine (shapeCast_a_1a_apply _ _ 0 j).trans ?_
  exact congrFun (V6_launch m outs c main_arg9 (by decide) (by decide) (by decide) (by decide) (by decide) (by decide)) (ix1 j)

theorem v39_apply (c : Dev nD) (n : Fin 100000) (j : Fin 2) :
    (Gen.V9 m outs c main_v39 : S100000x2.Idx → EReal) (ix2 n j)
      = (outs 8 main_v38 c : S102400x2.Idx → EReal) (ix2 ⟨n.val, by have := n.isLt; omega⟩ j) := by
  dsimp only [Gen.V9, Gen.hostOps5]
  after_results
  refine (slice2_axis0_apply 0 _ slices_S102400x2_S100000x2_0_0 n j ⟨n.val, by have := n.isLt; omega⟩ (Nat.zero_add _).symm).trans ?_
  exact congrFun (Function.update_self _ _ _ : Gen.V8 m outs c main_v38 = outs 8 main_v38 c) _

end Cert.KernelIdeal.Hand

end
-- ==== Proof.OneHot.lean ====
import Idealize.ShloMosaic.PureOps.Ideal
import Idealize.ShloMosaic.Lib.ValueIdx
import proofs.«407445_j30339648979088_1_alg».proof.Proof.Spec
import proofs.«407445_j30339648979088_1_alg».proof.Proof.LibGatherScatter

noncomputable section

open scoped BigOperators
open Idealize.ShloMosaic Idealize.ShloMosaic.ValueIdx

namespace Cert.OneHot

theorem sum_ind_mul_eq {ι : Type*} [Fintype ι] (p : ι → Prop) [DecidablePred p] (f : ι → EReal) (i : ι)
    (hp : ∀ m, p m ↔ m = i) :
    ∑ m, (if p m then (1 : EReal) else 0) * f m = f i := by
  rw [Finset.sum_eq_single i]
  · rw [if_pos ((hp i).2 rfl), one_mul]
  · intro m _ hm
    rw [if_neg (fun h => hm ((hp m).1 h)), zero_mul]
  · intro h
    exact absurd (Finset.mem_univ i) h

theorem sum_ind_mul_filter {ι : Type*} [Fintype ι] (p q : ι → Prop) [DecidablePred p] [DecidablePred q]
    (hpq : ∀ e, p e ↔ q e) (g : ι → EReal) :
    ∑ e, (if p e then (1 : EReal) else 0) * g e = ∑ e ∈ Finset.univ.filter q, g e := by
  rw [Finset.sum_filter]
  refine Finset.sum_congr rfl fun e _ => ?_
  by_cases h : p e
  · rw [if_pos h, if_pos ((hpq e).1 h), one_mul]
  · rw [if_neg h, if_neg (fun h' => h ((hpq e).2 h')), zero_mul]

theorem toInt_ofNat_of_lt {m : ℕ} (hm : m < 2 ^ 31) : (BitVec.ofNat 32 m).toInt = (m : ℤ) := by
  have hmod : (BitVec.ofNat 32 m).toNat = m := by
    rw [BitVec.toNat_ofNat]
    exact Nat.mod_eq_of_lt (by omega)
  rw [BitVec.toInt_eq_toNat_of_lt (by rw [hmod]; omega), hmod]

theorem eq_ofNat_iff_toInt {w : BitVec 32} {m : ℕ} (hm : m < 2 ^ 31) : w = BitVec.ofNat 32 m ↔ w.toInt = (m : ℤ) := by
  constructor
  · intro h
    rw [h]
    exact toInt_ofNat_of_lt hm
  · intro h
    apply BitVec.eq_of_toInt_eq
    rw [h, toInt_ofNat_of_lt hm]

theorem ofNat_eq_iff_toInt {w : BitVec 32} {m : ℕ} (hm : m < 2 ^ 31) : BitVec.ofNat 32 m = w ↔ w.toInt = (m : ℤ) := by
  rw [eq_comm]
  exact eq_ofNat_iff_toInt hm

theorem rowOf_val {w : BitVec 32} (h0 : 0 ≤ w.toInt) (h1 : w.toInt < 100000) : (GCN.GS.rowOf w).val = w.toInt.toNat := by
  show min w.toInt.toNat 99999 = w.toInt.toNat
  omega

theorem gather_pick (w : BitVec 32) (h0 : 0 ≤ w.toInt) (h1 : w.toInt < 100000) (hp : Fin 102400 → EReal) :
    ∑ m : Fin 102400, (if w = BitVec.ofNat 32 m.val then (1 : EReal) else 0) * hp m
      = hp ⟨w.toInt.toNat, by omega⟩ := by
  refine sum_ind_mul_eq (fun m : Fin 102400 => w = BitVec.ofNat 32 m.val) hp ⟨w.toInt.toNat, by omega⟩ ?_
  intro m
  have hm := m.isLt
  rw [eq_ofNat_iff_toInt (by omega)]
  constructor
  · intro h
    apply Fin.ext
    show m.val = w.toInt.toNat
    omega
  · intro h
    rw [h]
    show w.toInt = ((w.toInt.toNat : ℕ) : ℤ)
    omega

theorem gather_pick_rowOf (w : BitVec 32) (h0 : 0 ≤ w.toInt) (h1 : w.toInt < 100000)
    (h : Fin 100000 → EReal) (hp : Fin 102400 → EReal)
    (hhp : ∀ (n : Fin 102400) (hn : n.val < 100000), hp n = h ⟨n.val, hn⟩) :
    ∑ m : Fin 102400, (if w = BitVec.ofNat 32 m.val then (1 : EReal) else 0) * hp m = h (GCN.GS.rowOf w) := by
  rw [gather_pick w h0 h1 hp, hhp ⟨w.toInt.toNat, by omega⟩ (by show w.toInt.toNat < 100000; omega)]
  exact congrArg h (Fin.ext (rowOf_val h0 h1).symm)

theorem scatter_pick (d : Fin 1600000 → BitVec 32) (n : Fin 102400) (hn : n.val < 100000) (g : Fin 1600000 → EReal) :
    ∑ e : Fin 1600000, (if BitVec.ofNat 32 n.val = d e then (1 : EReal) else 0) * g e
      = ∑ e ∈ Cert.Spec.into d ⟨n.val, hn⟩, g e := by
  unfold Cert.Spec.into
  exact sum_ind_mul_filter _ _ (fun e => ofNat_eq_iff_toInt (by omega)) g

theorem layer_eq (s d : Fin 1600000 → BitVec 32) (h : Fin 100000 → Fin 128 → EReal) (Wl Wr : Fin 128 → Fin 128 → EReal)
    (b : Fin 128 → EReal) (hs : ∀ e, 0 ≤ (s e).toInt ∧ (s e).toInt < 100000)
    (io0 io1 : Fin 102400 → BitVec 32) (hio0 : ∀ m, io0 m = BitVec.ofNat 32 m.val) (hio1 : ∀ m, io1 m = BitVec.ofNat 32 m.val)
    (hp : Fin 102400 → Fin 128 → EReal) (ip : Fin 102400 → EReal)
    (hhp : ∀ (n : Fin 102400) (hn : n.val < 100000) (k : Fin 128), hp n k = h ⟨n.val, hn⟩ k)
    (hip : ∀ (n : Fin 102400) (hn : n.val < 100000), ip n = Cert.Spec.invDeg d ⟨n.val, hn⟩)
    (n : Fin 102400) (hn : n.val < 100000) (j : Fin 128) :
    max (((∑ k : Fin 128, ((∑ e : Fin 1600000, (if io1 n = d e then (1 : EReal) else 0)
              * (∑ m : Fin 102400, (if s e = io0 m then (1 : EReal) else 0) * hp m k)) * ip n) * Wl k j)
          + (∑ k : Fin 128, hp n k * Wr k j)) + b j) 0
      = Cert.Spec.sage s d h Wl Wr b ⟨n.val, hn⟩ j := by

  have hG : ∀ (e : Fin 1600000) (k : Fin 128),
      ∑ m : Fin 102400, (if s e = io0 m then (1 : EReal) else 0) * hp m k = h (GCN.GS.rowOf (s e)) k := by
    intro e k
    have hio : io0 = fun m => BitVec.ofNat 32 m.val := funext hio0
    rw [hio]
    exact gather_pick_rowOf (s e) (hs e).1 (hs e).2 (fun r => h r k) (fun m => hp m k) (fun m hm => hhp m hm k)

  have hM : ∀ k : Fin 128,
      (∑ e : Fin 1600000, (if io1 n = d e then (1 : EReal) else 0)
          * (∑ m : Fin 102400, (if s e = io0 m then (1 : EReal) else 0) * hp m k)) * ip n
        = Cert.Spec.mean s d h ⟨n.val, hn⟩ k := by
    intro k
    unfold Cert.Spec.mean
    rw [hip n hn, hio1 n, scatter_pick d n hn, Finset.sum_congr rfl fun e _ => hG e k]
  have e1 : (∑ k : Fin 128, ((∑ e : Fin 1600000, (if io1 n = d e then (1 : EReal) else 0)
              * (∑ m : Fin 102400, (if s e = io0 m then (1 : EReal) else 0) * hp m k)) * ip n) * Wl k j)
      = ∑ k : Fin 128, Cert.Spec.mean s d h ⟨n.val, hn⟩ k * Wl k j :=
    Finset.sum_congr rfl fun k _ => by rw [hM k]
  have e2 : (∑ k : Fin 128, hp n k * Wr k j) = ∑ k : Fin 128, h ⟨n.val, hn⟩ k * Wr k j :=
    Finset.sum_congr rfl fun k _ => by rw [hhp n hn k]
  unfold Cert.Spec.sage
  rw [e1, e2]

theorem head_eq (s d : Fin 1600000 → BitVec 32) (x : Fin 100000 → Fin 128 → EReal) (W1l W1r : Fin 128 → Fin 128 → EReal)
    (b1 : Fin 128 → EReal) (W2l W2r : Fin 128 → Fin 128 → EReal) (b2 : Fin 128 → EReal) (Wlin : Fin 128 → Fin 2 → EReal)
    (blin : Fin 2 → EReal) (h2p : Fin 102400 → Fin 128 → EReal)
    (hh2 : ∀ (n : Fin 102400) (hn : n.val < 100000) (k : Fin 128),
      h2p n k = Cert.Spec.sage s d (Cert.Spec.sage s d x W1l W1r b1) W2l W2r b2 ⟨n.val, hn⟩ k)
    (n : Fin 102400) (hn : n.val < 100000) (j : Fin 2) :
    (∑ k : Fin 128, h2p n k * Wlin k j) + blin j = Cert.Spec.out s d x W1l W1r b1 W2l W2r b2 Wlin blin ⟨n.val, hn⟩ j := by
  have e : (∑ k : Fin 128, h2p n k * Wlin k j)
      = ∑ k : Fin 128, Cert.Spec.sage s d (Cert.Spec.sage s d x W1l W1r b1) W2l W2r b2 ⟨n.val, hn⟩ k * Wlin k j :=
    Finset.sum_congr rfl fun k _ => by rw [hh2 n hn k]
  unfold Cert.Spec.out
  rw [e]

end Cert.OneHot

end
-- ==== Proof.KI.Value.lean ====
import proofs.«407445_j30339648979088_1_alg».proof.Proof.KI.Eqs
import proofs.«407445_j30339648979088_1_alg».proof.Proof.KI.Host
import proofs.«407445_j30339648979088_1_alg».proof.Proof.Spec
import proofs.«407445_j30339648979088_1_alg».proof.Proof.OneHot
import Idealize.ShloMosaic.Lib.Pipeline.Value
import Idealize.ShloMosaic.Lib.IdealHost
import Idealize.ShloMosaic.Lib.StableHlo.Run

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen
open scoped BigOperators

variable (m : (ℓ : Loc nD τ sig) → Buf (Elt Ideal) ℓ) (outs : Gen.Outs (F := Ideal))

def Leaves0 (c : Dev nD) : Prop :=
  GatherEq (Gen.V1 m c main_v2) (Gen.V1 m c main_v18) (Gen.V1 m c main_v23) (outs 2 main_v29 c)
def Leaves1 (c : Dev nD) : Prop :=
  LayerEq (Gen.V2 m outs c main_v20) (Gen.V2 m outs c main_v5) (Gen.V2 m outs c main_v29) (Gen.V2 m outs c main_v25)
    (Gen.V2 m outs c main_v23) (Gen.V2 m outs c main_v26) (Gen.V2 m outs c main_v27) (Gen.V2 m outs c main_v28)
    (outs 3 main_v30 c)
def Leaves2 (c : Dev nD) : Prop :=
  GatherEq (Gen.V4 m outs c main_v2) (Gen.V4 m outs c main_v18) (Gen.V4 m outs c main_v30) (outs 5 main_v34 c)
def Leaves3 (c : Dev nD) : Prop :=
  LayerEq (Gen.V5 m outs c main_v20) (Gen.V5 m outs c main_v5) (Gen.V5 m outs c main_v34) (Gen.V5 m outs c main_v25)
    (Gen.V5 m outs c main_v30) (Gen.V5 m outs c main_v31) (Gen.V5 m outs c main_v32) (Gen.V5 m outs c main_v33)
    (outs 6 main_v35 c)
def Leaves4 (c : Dev nD) : Prop :=
  HeadEq (Gen.V7 m outs c main_v35) (Gen.V7 m outs c main_v36) (Gen.V7 m outs c main_v37) (outs 8 main_v38 c)

theorem chain
    (A0 : S100000x128.Idx → EReal) (A1 : S2x1600000.Idx → BitVec 32) (A2 A3 : S128x128.Idx → EReal) (A4 : S128.Idx → EReal)
    (A5 A6 : S128x128.Idx → EReal) (A7 : S128.Idx → EReal) (A8 : S128x2.Idx → EReal) (A9 : S2.Idx → EReal)
    (hsrc : ∀ e : Fin 1600000, 0 ≤ (A1 (ix2 (0 : Fin 2) e)).toInt ∧ (A1 (ix2 (0 : Fin 2) e)).toInt < 100000)
    (w2 : S1600000x1.Idx → BitVec 32) (w5 : S1x1600000.Idx → BitVec 32) (w18 : S1x102400.Idx → BitVec 32)
    (w20 : S102400x1.Idx → BitVec 32) (w23 : S102400x128.Idx → EReal) (w25 : S102400x1.Idx → EReal)
    (w26 w27 : S128x128.Idx → EReal) (w28 : S1x128.Idx → EReal) (w31 w32 : S128x128.Idx → EReal) (w33 : S1x128.Idx → EReal)
    (w36 : S128x2.Idx → EReal) (w37 : S1x2.Idx → EReal)
    (o29 o34 : S1600000x128.Idx → EReal) (o30 o35 : S102400x128.Idx → EReal) (o38 : S102400x2.Idx → EReal)
    (r2 : ∀ e : Fin 1600000, w2 (ix2 e (0 : Fin 1)) = A1 (ix2 (0 : Fin 2) e))
    (r5 : ∀ e : Fin 1600000, w5 (ix2 (0 : Fin 1) e) = A1 (ix2 (1 : Fin 2) e))
    (r18 : ∀ n : Fin 102400, w18 (ix2 (0 : Fin 1) n) = BitVec.ofNat 32 n.val)
    (r20 : ∀ n : Fin 102400, w20 (ix2 n (0 : Fin 1)) = BitVec.ofNat 32 n.val)
    (r23 : ∀ (n : Fin 102400) (hn : n.val < 100000) (q : Fin 128), w23 (ix2 n q) = A0 (ix2 ⟨n.val, hn⟩ q))
    (r25 : ∀ (n : Fin 102400) (hn : n.val < 100000),
      w25 (ix2 n (0 : Fin 1)) = Cert.Spec.invDeg (fun e => A1 (ix2 (1 : Fin 2) e)) ⟨n.val, hn⟩)
    (r26 : ∀ k j : Fin 128, w26 (ix2 k j) = A2 (ix2 k j)) (r27 : ∀ k j : Fin 128, w27 (ix2 k j) = A3 (ix2 k j))
    (r28 : ∀ j : Fin 128, w28 (ix2 (0 : Fin 1) j) = A4 (ix1 j))
    (r31 : ∀ k j : Fin 128, w31 (ix2 k j) = A5 (ix2 k j)) (r32 : ∀ k j : Fin 128, w32 (ix2 k j) = A6 (ix2 k j))
    (r33 : ∀ j : Fin 128, w33 (ix2 (0 : Fin 1) j) = A7 (ix1 j))
    (r36 : ∀ (k : Fin 128) (j : Fin 2), w36 (ix2 k j) = A8 (ix2 k j))
    (r37 : ∀ j : Fin 2, w37 (ix2 (0 : Fin 1) j) = A9 (ix1 j))
    (L0 : GatherEq w2 w18 w23 o29) (L1 : LayerEq w20 w5 o29 w25 w23 w26 w27 w28 o30)
    (L2 : GatherEq w2 w18 o30 o34) (L3 : LayerEq w20 w5 o34 w25 o30 w31 w32 w33 o35) (L4 : HeadEq o35 w36 w37 o38)
    (n : Fin 102400) (hn : n.val < 100000) (j : Fin 2) :
    o38 (ix2 n j)
      = Cert.Spec.out (fun e => A1 (ix2 (0 : Fin 2) e)) (fun e => A1 (ix2 (1 : Fin 2) e)) (fun n k => A0 (ix2 n k))
          (fun k j => A2 (ix2 k j)) (fun k j => A3 (ix2 k j)) (fun j => A4 (ix1 j))
          (fun k j => A5 (ix2 k j)) (fun k j => A6 (ix2 k j)) (fun j => A7 (ix1 j))
          (fun k j => A8 (ix2 k j)) (fun j => A9 (ix1 j)) ⟨n.val, hn⟩ j := by
  unfold GatherEq at L0 L2
  unfold LayerEq at L1 L3
  unfold HeadEq at L4

  have H1 : ∀ (n : Fin 102400) (hn : n.val < 100000) (k : Fin 128), o30 (ix2 n k)
      = Cert.Spec.sage (fun e => A1 (ix2 (0 : Fin 2) e)) (fun e => A1 (ix2 (1 : Fin 2) e)) (fun n k => A0 (ix2 n k))
          (fun k j => A2 (ix2 k j)) (fun k j => A3 (ix2 k j)) (fun j => A4 (ix1 j)) ⟨n.val, hn⟩ k := by
    intro n hn k
    rw [L1 n k]
    simp only [L0, r2, r5, r26, r27, r28]
    exact Cert.OneHot.layer_eq (fun e => A1 (ix2 (0 : Fin 2) e)) (fun e => A1 (ix2 (1 : Fin 2) e)) (fun n k => A0 (ix2 n k))
      (fun k j => A2 (ix2 k j)) (fun k j => A3 (ix2 k j)) (fun j => A4 (ix1 j)) hsrc
      (fun m' => w18 (ix2 (0 : Fin 1) m')) (fun n => w20 (ix2 n (0 : Fin 1))) r18 r20
      (fun m' k => w23 (ix2 m' k)) (fun n => w25 (ix2 n (0 : Fin 1))) r23 r25 n hn k

  have H2 : ∀ (n : Fin 102400) (hn : n.val < 100000) (k : Fin 128), o35 (ix2 n k)
      = Cert.Spec.sage (fun e => A1 (ix2 (0 : Fin 2) e)) (fun e => A1 (ix2 (1 : Fin 2) e))
          (Cert.Spec.sage (fun e => A1 (ix2 (0 : Fin 2) e)) (fun e => A1 (ix2 (1 : Fin 2) e)) (fun n k => A0 (ix2 n k))
            (fun k j => A2 (ix2 k j)) (fun k j => A3 (ix2 k j)) (fun j => A4 (ix1 j)))
          (fun k j => A5 (ix2 k j)) (fun k j => A6 (ix2 k j)) (fun j => A7 (ix1 j)) ⟨n.val, hn⟩ k := by
    intro n hn k
    rw [L3 n k]
    simp only [L2, r2, r5, r31, r32, r33]
    exact Cert.OneHot.layer_eq (fun e => A1 (ix2 (0 : Fin 2) e)) (fun e => A1 (ix2 (1 : Fin 2) e))
      (Cert.Spec.sage (fun e => A1 (ix2 (0 : Fin 2) e)) (fun e => A1 (ix2 (1 : Fin 2) e)) (fun n k => A0 (ix2 n k))
        (fun k j => A2 (ix2 k j)) (fun k j => A3 (ix2 k j)) (fun j => A4 (ix1 j)))
      (fun k j => A5 (ix2 k j)) (fun k j => A6 (ix2 k j)) (fun j => A7 (ix1 j)) hsrc
      (fun m' => w18 (ix2 (0 : Fin 1) m')) (fun n => w20 (ix2 n (0 : Fin 1))) r18 r20
      (fun m' k => o30 (ix2 m' k)) (fun n => w25 (ix2 n (0 : Fin 1))) H1 r25 n hn k

  rw [L4 n j]
  simp only [r36, r37]
  exact Cert.OneHot.head_eq (fun e => A1 (ix2 (0 : Fin 2) e)) (fun e => A1 (ix2 (1 : Fin 2) e)) (fun n k => A0 (ix2 n k))
    (fun k j => A2 (ix2 k j)) (fun k j => A3 (ix2 k j)) (fun j => A4 (ix1 j))
    (fun k j => A5 (ix2 k j)) (fun k j => A6 (ix2 k j)) (fun j => A7 (ix1 j))
    (fun k j => A8 (ix2 k j)) (fun j => A9 (ix1 j)) (fun n k => o35 (ix2 n k)) H2 n hn j

theorem kernel_value (c : Dev nD)
    (hsrc : ∀ e : Fin 1600000, 0 ≤ (a1 m c (ix2 (0 : Fin 2) e)).toInt ∧ (a1 m c (ix2 (0 : Fin 2) e)).toInt < 100000)
    (h0 : Leaves0 m outs c) (h1 : Leaves1 m outs c) (h2 : Leaves2 m outs c) (h3 : Leaves3 m outs c)
    (h4 : Leaves4 m outs c) :
    (Gen.V9 m outs c main_v39 : S100000x2.Idx → EReal)
      = Cert.Spec.G (a0 m c) (a1 m c) (a2 m c) (a3 m c) (a4 m c) (a5 m c) (a6 m c) (a7 m c) (a8 m c) (a9 m c) := by

  have L1 := h1
  unfold Leaves1 at L1
  rw [V2_of m outs c main_v20 (by decide), V2_of m outs c main_v5 (by decide), V2_v29 m outs c,
    V2_of m outs c main_v25 (by decide), V2_of m outs c main_v26 (by decide), V2_of m outs c main_v23 (by decide),
    V2_of m outs c main_v27 (by decide), V2_of m outs c main_v28 (by decide)] at L1
  have L2 := h2
  unfold Leaves2 at L2
  rw [V4_V1 m outs c main_v2 (by decide) (by decide) (by decide),
    V4_V1 m outs c main_v18 (by decide) (by decide) (by decide), V4_v30 m outs c] at L2
  have L3 := h3
  unfold Leaves3 at L3
  rw [V5_V1 m outs c main_v20 (by decide) (by decide) (by decide) (by decide),
    V5_V1 m outs c main_v5 (by decide) (by decide) (by decide) (by decide), V5_v34 m outs c,
    V5_V1 m outs c main_v25 (by decide) (by decide) (by decide) (by decide),
    V5_of m outs c main_v31 (by decide), V5_v30 m outs c, V5_of m outs c main_v32 (by decide),
    V5_of m outs c main_v33 (by decide)] at L3
  have L4 := h4
  unfold Leaves4 at L4
  rw [V7_v35 m outs c] at L4
  refine funext fun (i : S100000x2.Idx) => ?_
  obtain ⟨n, j, rfl⟩ : ∃ (n : Fin 100000) (j : Fin 2), i = ix2 n j := ⟨i 0, i 1, eq_ix2 i⟩
  rw [v39_apply m outs c n j]
  exact chain (a0 m c) (a1 m c) (a2 m c) (a3 m c) (a4 m c) (a5 m c) (a6 m c) (a7 m c) (a8 m c) (a9 m c) hsrc
    (Gen.V1 m c main_v2) (Gen.V1 m c main_v5) (Gen.V1 m c main_v18) (Gen.V1 m c main_v20) (Gen.V1 m c main_v23)
    (Gen.V1 m c main_v25) (Gen.V1 m c main_v26) (Gen.V1 m c main_v27) (Gen.V1 m c main_v28)
    (Gen.V4 m outs c main_v31) (Gen.V4 m outs c main_v32) (Gen.V4 m outs c main_v33)
    (Gen.V7 m outs c main_v36) (Gen.V7 m outs c main_v37)
    (outs 2 main_v29 c) (outs 5 main_v34 c) (outs 3 main_v30 c) (outs 6 main_v35 c) (outs 8 main_v38 c)
    (v2_apply m c) (v5_apply m c) (v18_apply m c) (v20_apply m c) (v23_apply_lt m c) (v25_apply_lt m c)
    (v26_apply m c) (v27_apply m c) (v28_apply m c)
    (v31_apply m outs c) (v32_apply m outs c) (v33_apply m outs c) (v36_apply m outs c) (v37_apply m outs c)
    h0 L1 L2 L3 L4 ⟨n.val, by have := n.isLt; omega⟩ n.isLt j

end Cert.KernelIdeal.Hand

end
-- ==== Proof.lean ====
import proofs.«407445_j30339648979088_1_alg».proof.Defs
import proofs.«407445_j30339648979088_1_alg».proof.Proof.Gen.Kernel
import proofs.«407445_j30339648979088_1_alg».proof.Proof.Gen.KernelIdeal
import proofs.«407445_j30339648979088_1_alg».proof.Proof.Gen.ReferenceIdeal
import proofs.«407445_j30339648979088_1_alg».proof.Proof.Gen.Pre_finite_inputs
import proofs.«407445_j30339648979088_1_alg».proof.Proof.PreSrc
import proofs.«407445_j30339648979088_1_alg».proof.Proof.Ref
import proofs.«407445_j30339648979088_1_alg».proof.Proof.K.Frame
import proofs.«407445_j30339648979088_1_alg».proof.Proof.KI.Run
import proofs.«407445_j30339648979088_1_alg».proof.Proof.KI.Val0
import proofs.«407445_j30339648979088_1_alg».proof.Proof.KI.Val1
import proofs.«407445_j30339648979088_1_alg».proof.Proof.KI.Val2
import proofs.«407445_j30339648979088_1_alg».proof.Proof.KI.Val3
import proofs.«407445_j30339648979088_1_alg».proof.Proof.KI.Val4
import proofs.«407445_j30339648979088_1_alg».proof.Proof.KI.Value

noncomputable section

namespace Cert.KernelIdeal.Hand

open Cert.KernelIdeal Cert.KernelIdeal.Gen
open Idealize.ShloMosaic Idealize.ShloMosaic.TcCoe Idealize.ShloMosaic.ValueIdx

section Leaves
variable (m : (ℓ : Loc nD τ sig) → Buf (Elt Ideal) ℓ) (c : Dev nD)

theorem leaves0 : Leaves0 m (outs m) c := by
  have h := out0_apply (Vin0 m) c
  rw [← outs2_eq m c] at h
  exact h
theorem leaves1 : Leaves1 m (outs m) c := by
  have h := out1_apply (Vin1 m) c
  rw [← outs3_eq m c] at h
  exact h
theorem leaves2 : Leaves2 m (outs m) c := by
  have h := out2_apply (Vin2 m) c
  rw [← outs5_eq m c] at h
  exact h
theorem leaves3 : Leaves3 m (outs m) c := by
  have h := out3_apply (Vin3 m) c
  rw [← outs6_eq m c] at h
  exact h
theorem leaves4 : Leaves4 m (outs m) c := by
  have h := out4_apply (Vin4 m) c
  rw [← outs8_eq m c] at h
  exact h
end Leaves

end Cert.KernelIdeal.Hand

namespace Cert.Proof

open Idealize.ShloMosaic Idealize.SL.Sem Idealize.ShloMosaic.ValueIdx

theorem frame_k : Cert.frame_Kernel := fun m ρ _ => Cert.Kernel.Hand.frame m ρ

-- the run at the ideal values with the result dropped
theorem frame_ki : Cert.frame_KernelIdeal := fun m ρ _ =>
  (θ_run Cert.KernelIdeal.defs _ _).mono (fun _ h c => by
    obtain ⟨p0, p1, p2, p3, p4, p5, p6, p7, p8, p9, _⟩ := h c
    exact ⟨p0, p1, p2, p3, p4, p5, p6, p7, p8, p9⟩) (Cert.KernelIdeal.Hand.run m ρ)

theorem src_words (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : Fin 1600000, 0 ≤ ((m ((c.tc : Thread Cert.KernelIdeal.nD Cert.KernelIdeal.τ).loc Cert.KernelIdeal.main_arg1)) (ix2 (0 : Fin 2) e)).toInt
      ∧ ((m ((c.tc : Thread Cert.KernelIdeal.nD Cert.KernelIdeal.τ).loc Cert.KernelIdeal.main_arg1)) (ix2 (0 : Fin 2) e)).toInt < 100000 :=
  Cert.PreSrc.src_range _ _ _ _ _ _ _ _ _ _ (hpre c)

theorem algebraic : Cert.algebraic_KernelIdeal_ReferenceIdeal := by
  intro m ρ m' ρ' hpre hagree
  have hsrc := src_words m hpre
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun _ h c => ?_) (Cert.KernelIdeal.Hand.run m ρ)
    obtain ⟨p0, p1, p2, p3, p4, p5, p6, p7, p8, p9, hres⟩ := h c
    exact ⟨hres.trans (Cert.KernelIdeal.Hand.kernel_value m (Cert.KernelIdeal.Hand.outs m) c (hsrc c)
        (Cert.KernelIdeal.Hand.leaves0 m c) (Cert.KernelIdeal.Hand.leaves1 m c) (Cert.KernelIdeal.Hand.leaves2 m c)
        (Cert.KernelIdeal.Hand.leaves3 m c) (Cert.KernelIdeal.Hand.leaves4 m c)), p0, p1, p2, p3, p4, p5, p6, p7, p8, p9⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    have hsrc' : ∀ e : Fin 1600000,
        0 ≤ ((m' ((c.tc : Thread Cert.ReferenceIdeal.nD Cert.ReferenceIdeal.τ).loc Cert.ReferenceIdeal.main_arg1)) (ix2 (0 : Fin 2) e)).toInt
        ∧ ((m' ((c.tc : Thread Cert.ReferenceIdeal.nD Cert.ReferenceIdeal.τ).loc Cert.ReferenceIdeal.main_arg1)) (ix2 (0 : Fin 2) e)).toInt < 100000 := by
      rw [h1]
      exact hsrc c
    rw [Cert.ReferenceIdeal.RefValue.run_result_eq m' c hsrc', h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
